-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S1x1 : Shape := ⟨2, ![1, 1]⟩
abbrev S512x1024 : Shape := ⟨2, ![512, 1024]⟩
abbrev S4096x1 : Shape := ⟨2, ![4096, 1]⟩
abbrev S1x4096 : Shape := ⟨2, ![1, 4096]⟩
abbrev S4096x128 : Shape := ⟨2, ![4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S512x128 : Shape := ⟨2, ![512, 128]⟩
abbrev S256x1024 : Shape := ⟨2, ![256, 1024]⟩
abbrev S256x256 : Shape := ⟨2, ![256, 256]⟩
abbrev S1x256 : Shape := ⟨2, ![1, 256]⟩
abbrev S256x128 : Shape := ⟨2, ![256, 128]⟩
abbrev S256x1 : Shape := ⟨2, ![256, 1]⟩
abbrev S256 : Shape := ⟨1, ![256]⟩
abbrev S4096 : Shape := ⟨1, ![4096]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1, .f32⟩
  | .hbm, ⟨2, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1, .f32⟩
  | .local _ .vmem, ⟨3, _⟩ => ⟨S4096x1024, .bf16⟩
  | .local _ .vmem, ⟨4, _⟩ => ⟨S4096x1, .f32⟩
  | .local _ .vmem, ⟨5, _⟩ => ⟨S1x4096, .f32⟩
  | .local _ .vmem, ⟨6, _⟩ => ⟨S4096x128, .f32⟩
  | .local _ .vmem, ⟨7, _⟩ => ⟨S1x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v9 : Index := Scalar.indexCast v4
  let c0_2 : Index := 0#32
  ![v9.toNat, 0]
def k0_off2 (i : grid0.Coords) : Fin 2 → Nat :=
  let arg0 : BitVec 32 := BitVec.ofNat 32 (i 0).val
  let c512_i32 : BitVec 32 := 512#32
  let v4 : BitVec 32 := Scalar.muli arg0 c512_i32
  let v17 : Index := Scalar.indexCast v4
  let c0_4 : Index := 0#32
  ![v17.toNat, 0]
def k0_off3 (i : grid0.Coords) : Fin 2 → Nat :=
  let c0_5 : Index := 0#32
  let arg0 : BitVec 32 := BitVec.ofNat 32 (i 0).val
  let c512_i32 : BitVec 32 := 512#32
  let v4 : BitVec 32 := Scalar.muli arg0 c512_i32
  let v21 : Index := Scalar.indexCast v4
  ![0, v21.toNat]
def k0_cond2 (i : grid0.Coords) : BitVec 1 :=
  let arg0 : BitVec 32 := BitVec.ofNat 32 (i 0).val
  let c0_i32_6 : BitVec 32 := 0#32
  let v25 : BitVec 1 := Scalar.cmpi .sgt arg0 c0_i32_6
  let v26 : BitVec 32 := Scalar.extui v25
  let c0_i32_7 : BitVec 32 := 0#32
  let v27 : BitVec 1 := Scalar.cmpi .ne v26 c0_i32_7
  v27

def k0_off4 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_41 : Index := 0#32
  ![v132.toNat, 0]
def k0_cond3 (i : grid0.Coords) : BitVec 1 :=
  let arg0 : BitVec 32 := BitVec.ofNat 32 (i 0).val
  let c1_i32 : BitVec 32 := 1#32
  let v28 : BitVec 1 := Scalar.cmpi .sgt arg0 c1_i32
  let v29 : BitVec 32 := Scalar.extui v28
  let c0_i32_8 : BitVec 32 := 0#32
  let v30 : BitVec 1 := Scalar.cmpi .ne v29 c0_i32_8
  v30

def k0_off5 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_cond4 (i : grid0.Coords) : BitVec 1 :=
  let arg0 : BitVec 32 := BitVec.ofNat 32 (i 0).val
  let c2_i32 : BitVec 32 := 2#32
  let v31 : BitVec 1 := Scalar.cmpi .sgt arg0 c2_i32
  let v32 : BitVec 32 := Scalar.extui v31
  let c0_i32_9 : BitVec 32 := 0#32
  let v33 : BitVec 1 := Scalar.cmpi .ne v32 c0_i32_9
  v33

def k0_off6 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_cond5 (i : grid0.Coords) : BitVec 1 :=
  let arg0 : BitVec 32 := BitVec.ofNat 32 (i 0).val
  let c3_i32 : BitVec 32 := 3#32
  let v34 : BitVec 1 := Scalar.cmpi .sgt arg0 c3_i32
  let v35 : BitVec 32 := Scalar.extui v34
  let c0_i32_10 : BitVec 32 := 0#32
  let v36 : BitVec 1 := Scalar.cmpi .ne v35 c0_i32_10
  v36

def k0_off7 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_cond6 (i : grid0.Coords) : BitVec 1 :=
  let arg0 : BitVec 32 := BitVec.ofNat 32 (i 0).val
  let c4_i32 : BitVec 32 := 4#32
  let v37 : BitVec 1 := Scalar.cmpi .sgt arg0 c4_i32
  let v38 : BitVec 32 := Scalar.extui v37
  let c0_i32_11 : BitVec 32 := 0#32
  let v39 : BitVec 1 := Scalar.cmpi .ne v38 c0_i32_11
  v39

def k0_off8 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_cond7 (i : grid0.Coords) : BitVec 1 :=
  let arg0 : BitVec 32 := BitVec.ofNat 32 (i 0).val
  let c5_i32 : BitVec 32 := 5#32
  let v40 : BitVec 1 := Scalar.cmpi .sgt arg0 c5_i32
  let v41 : BitVec 32 := Scalar.extui v40
  let c0_i32_12 : BitVec 32 := 0#32
  let v42 : BitVec 1 := Scalar.cmpi .ne v41 c0_i32_12
  v42

def k0_off9 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_cond8 (i : grid0.Coords) : BitVec 1 :=
  let arg0 : BitVec 32 := BitVec.ofNat 32 (i 0).val
  let c6_i32 : BitVec 32 := 6#32
  let v43 : BitVec 1 := Scalar.cmpi .sgt arg0 c6_i32
  let v44 : BitVec 32 := Scalar.extui v43
  let c0_i32_13 : BitVec 32 := 0#32
  let v45 : BitVec 1 := Scalar.cmpi .ne v44 c0_i32_13
  v45

def k0_off10 (i : grid0.Coords) : Fin 2 → Nat :=
  let arg0 : BitVec 32 := BitVec.ofNat 32 (i 0).val
  let c512_i32 : BitVec 32 := 512#32
  let v4 : BitVec 32 := Scalar.muli arg0 c512_i32
  let v132 : Index := Scalar.indexCast v4
  let c0_40 : Index := 0#32
  ![v132.toNat, 0]
def k0_off11 (i : grid0.Coords) (c0_i32_17 : BitVec 32) : Fin 2 → Nat :=
  let arg0 : BitVec 32 := BitVec.ofNat 32 (i 0).val
  let c512_i32_16 : BitVec 32 := 512#32
  let v57 : BitVec 32 := Scalar.muli arg0 c512_i32_16
  let v58 : BitVec 32 := Scalar.addi v57 c0_i32_17
  let v59 : Index := Scalar.indexCast v58
  let c0_18 : Index := 0#32
  ![v59.toNat, 0]
def k0_off12 (i : grid0.Coords) : Fin 2 → Nat :=
  let c0_26 : Index := 0#32
  let arg0 : BitVec 32 := BitVec.ofNat 32 (i 0).val
  let c512_i32_24 : BitVec 32 := 512#32
  let v90 : BitVec 32 := Scalar.muli arg0 c512_i32_24
  let c0_i32_25 : BitVec 32 := 0#32
  let v91 : BitVec 32 := Scalar.addi v90 c0_i32_25
  let v92 : Index := Scalar.indexCast v91
  ![0, v92.toNat]
def k0_cond9 (i : grid0.Coords) : BitVec 1 :=
  let arg0 : BitVec 32 := BitVec.ofNat 32 (i 0).val
  let c7_i32 : BitVec 32 := 7#32
  let v124 : BitVec 1 := Scalar.cmpi .eq arg0 c7_i32
  let v125 : BitVec 32 := Scalar.extui v124
  let c0_i32_35 : BitVec 32 := 0#32
  let v126 : BitVec 1 := Scalar.cmpi .ne v125 c0_i32_35
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S512x1024_S512x1024 : S512x1024.ShapeCasts S512x1024
  reduces_S512x1024_S512 : S512x1024.Reduces [1] S512
  shapeCasts_S512_S512x1 : S512.ShapeCasts S512x1
  shapeCasts_S512x1_S1x512 : S512x1.ShapeCasts S1x512
  h_S512x1 : 0 < S512x1.numel
  shapeCasts_S512x1_S512x1 : S512x1.ShapeCasts S512x1
  h_S1x512 : 0 < S1x512.numel
  shapeCasts_S1x512_S1x512 : S1x512.ShapeCasts S1x512
  inb_S4096x1024_S512x1024_0_0 : ∀ a, (![0, 0] : Fin 2 → Nat) a + S512x1024.size a ≤ S4096x1024.size a
  inb_S1x4096_S1x512_0_0 : ∀ a, (![0, 0] : Fin 2 → Nat) a + S1x512.size a ≤ S1x4096.size a
  broadcasts_S1x512_S512x512 : S1x512.Broadcasts S512x512
  h_S512x128 : 0 < S512x128.numel
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  shapeCasts_S512x128_S512x128 : S512x128.ShapeCasts S512x128
  broadcasts_S512x1_S512x512 : S512x1.Broadcasts S512x512
  reduces_S512x512_S512 : S512x512.Reduces [0] S512
  shapeCasts_S512_S1x512 : S512.ShapeCasts S1x512
  inb_S4096x1024_S512x1024_512_0 : ∀ a, (![512, 0] : Fin 2 → Nat) a + S512x1024.size a ≤ S4096x1024.size a
  inb_S1x4096_S1x512_0_512 : ∀ a, (![0, 512] : Fin 2 → Nat) a + S1x512.size a ≤ S1x4096.size a
  inb_S4096x1024_S512x1024_1024_0 : ∀ a, (![1024, 0] : Fin 2 → Nat) a + S512x1024.size a ≤ S4096x1024.size a
  inb_S1x4096_S1x512_0_1024 : ∀ a, (![0, 1024] : Fin 2 → Nat) a + S1x512.size a ≤ S1x4096.size a
  inb_S4096x1024_S512x1024_1536_0 : ∀ a, (![1536, 0] : Fin 2 → Nat) a + S512x1024.size a ≤ S4096x1024.size a
  inb_S1x4096_S1x512_0_1536 : ∀ a, (![0, 1536] : Fin 2 → Nat) a + S1x512.size a ≤ S1x4096.size a
  inb_S4096x1024_S512x1024_2048_0 : ∀ a, (![2048, 0] : Fin 2 → Nat) a + S512x1024.size a ≤ S4096x1024.size a
  inb_S1x4096_S1x512_0_2048 : ∀ a, (![0, 2048] : Fin 2 → Nat) a + S1x512.size a ≤ S1x4096.size a
  inb_S4096x1024_S512x1024_2560_0 : ∀ a, (![2560, 0] : Fin 2 → Nat) a + S512x1024.size a ≤ S4096x1024.size a
  inb_S1x4096_S1x512_0_2560 : ∀ a, (![0, 2560] : Fin 2 → Nat) a + S1x512.size a ≤ S1x4096.size a
  inb_S4096x1024_S512x1024_3072_0 : ∀ a, (![3072, 0] : Fin 2 → Nat) a + S512x1024.size a ≤ S4096x1024.size a
  inb_S1x4096_S1x512_0_3072 : ∀ a, (![0, 3072] : Fin 2 → Nat) a + S1x512.size a ≤ S1x4096.size a
  slices_S512x1024_o0_0_S256x1024 : S512x1024.Slices ![0, 0] S256x1024
  slices_S1x512_o0_0_S1x256 : S1x512.Slices ![0, 0] S1x256
  broadcasts_S1x256_S256x256 : S1x256.Broadcasts S256x256
  iota_S256x256_d0_w32 : S256x256.Iotas .tc 32 [0]
  iota_S256x256_d1_w32 : S256x256.Iotas .tc 32 [1]
  h_S256x128 : 0 < S256x128.numel
  slices_S256x256_o0_0_S256x128 : S256x256.Slices ![0, 0] S256x128
  slices_S256x256_o0_128_S256x128 : S256x256.Slices ![0, 128] S256x128
  shapeCasts_S256x128_S256x128 : S256x128.ShapeCasts S256x128
  slices_S512x1024_o256_0_S256x1024 : S512x1024.Slices ![256, 0] S256x1024
  slices_S512x1_o256_0_S256x1 : S512x1.Slices ![256, 0] S256x1
  broadcasts_S256x1_S256x256 : S256x1.Broadcasts S256x256
  h_S1x256 : 0 < S1x256.numel
  reduces_S256x256_S256 : S256x256.Reduces [0] S256
  shapeCasts_S256_S1x256 : S256.ShapeCasts S1x256
  shapeCasts_S1x256_S1x256 : S1x256.ShapeCasts S1x256
  slices_S1x512_o0_256_S1x256 : S1x512.Slices ![0, 256] S1x256
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S1x4096_S4096x1 : S1x4096.ShapeCasts S4096x1
  shapeCasts_S4096x1_S32x128 : S4096x1.ShapeCasts S32x128
  shapeCasts_S32x128_S1x32x128 : S32x128.ShapeCasts S1x32x128
  reduces_S1x32x128_S1 : S1x32x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x1024_S512x1024_S512x512_1_1_0_0_n_n_wf : DotDims.WF S512x1024 S512x1024 S512x512 [1] [1] [0] [0] [] []
  dot_S256x1024_S256x1024_S256x256_1_1_0_0_n_n_wf : DotDims.WF S256x1024 S256x1024 S256x256 [1] [1] [0] [0] [] []
  hrank0 : 0 < grid0.rank
  k0_off1_inb : ∀ i : grid0.Coords, ∀ a, (k0_off1 i) a + S512x1024.size a ≤ S4096x1024.size a
  k0_off1_packedbf16 : ∀ i : grid0.Coords, (Rect.unit (s := S4096x1024) (k0_off1 i) S512x1024.size (k0_off1_inb i)).PackedRows (EltTy.packing .bf16)
  k0_off2_inb : ∀ i : grid0.Coords, ∀ a, (k0_off2 i) a + S512x1.size a ≤ S4096x1.size a
  k0_off3_inb : ∀ i : grid0.Coords, ∀ a, (k0_off3 i) a + S1x512.size a ≤ S1x4096.size a
  k0_off4_inb : ∀ i : grid0.Coords, ∀ (k0_h2 : k0_cond2 i = 1#1), ∀ a, (k0_off4 i) a + S512x128.size a ≤ S4096x128.size a
  k0_off5_inb : ∀ i : grid0.Coords, ∀ (k0_h3 : k0_cond3 i = 1#1), ∀ a, (k0_off5 i) a + S512x128.size a ≤ S4096x128.size a
  k0_off6_inb : ∀ i : grid0.Coords, ∀ (k0_h4 : k0_cond4 i = 1#1), ∀ a, (k0_off6 i) a + S512x128.size a ≤ S4096x128.size a
  k0_off7_inb : ∀ i : grid0.Coords, ∀ (k0_h5 : k0_cond5 i = 1#1), ∀ a, (k0_off7 i) a + S512x128.size a ≤ S4096x128.size a
  k0_off8_inb : ∀ i : grid0.Coords, ∀ (k0_h6 : k0_cond6 i = 1#1), ∀ a, (k0_off8 i) a + S512x128.size a ≤ S4096x128.size a
  k0_off9_inb : ∀ i : grid0.Coords, ∀ (k0_h7 : k0_cond7 i = 1#1), ∀ a, (k0_off9 i) a + S512x128.size a ≤ S4096x128.size a
  k0_off10_inb : ∀ i : grid0.Coords, ∀ (k0_h8 : k0_cond8 i = 1#1), ∀ a, (k0_off10 i) a + S512x128.size a ≤ S4096x128.size a
  k0_off11_inb : ∀ i : grid0.Coords, ∀ (r : Fin 2), ∀ a, (k0_off11 i (BitVec.ofNat 32 (256 * r.val))) a + S256x128.size a ≤ S4096x128.size a
  k0_off12_inb : ∀ i : grid0.Coords, ∀ a, (k0_off12 i) a + S1x256.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond9 i == 1#1) | ⟨_ + 2, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S1024x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Cases.lean ====
import proofs.«108340_g74552042324289_cont_9to1_m_1244_4_alg».proof.Proof.Gen.KernelIdeal.Frame
import proofs.«108340_g74552042324289_cont_9to1_m_1244_4_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid0.Coords) : Prop :=
  (Scalar.cmpi .ne (Scalar.extui (Scalar.cmpi .eq (BitVec.ofNat 32 (i 0).val) 0#32)) 0#32) = 1#1

/-- Which conditionals a grid point takes: the reset at 0, tile (g, i) when i < g, the final reduction at 7. -/
theorem hcond1 : ∀ t : Fin cfg0.N, cond1 (grid0.coords t) ↔ t.val = 0 :=
  (by decide +kernel : ∀ t : Fin grid0.N, cond1 (grid0.coords t) ↔ t.val = 0)

theorem hcond2 : ∀ t : Fin cfg0.N, k0_cond2 (grid0.coords t) = 1#1 ↔ 0 < t.val :=
  (by decide +kernel : ∀ t : Fin grid0.N, k0_cond2 (grid0.coords t) = 1#1 ↔ 0 < t.val)
theorem hcond3 : ∀ t : Fin cfg0.N, k0_cond3 (grid0.coords t) = 1#1 ↔ 1 < t.val :=
  (by decide +kernel : ∀ t : Fin grid0.N, k0_cond3 (grid0.coords t) = 1#1 ↔ 1 < t.val)
theorem hcond4 : ∀ t : Fin cfg0.N, k0_cond4 (grid0.coords t) = 1#1 ↔ 2 < t.val :=
  (by decide +kernel : ∀ t : Fin grid0.N, k0_cond4 (grid0.coords t) = 1#1 ↔ 2 < t.val)
theorem hcond5 : ∀ t : Fin cfg0.N, k0_cond5 (grid0.coords t) = 1#1 ↔ 3 < t.val :=
  (by decide +kernel : ∀ t : Fin grid0.N, k0_cond5 (grid0.coords t) = 1#1 ↔ 3 < t.val)
theorem hcond6 : ∀ t : Fin cfg0.N, k0_cond6 (grid0.coords t) = 1#1 ↔ 4 < t.val :=
  (by decide +kernel : ∀ t : Fin grid0.N, k0_cond6 (grid0.coords t) = 1#1 ↔ 4 < t.val)
theorem hcond7 : ∀ t : Fin cfg0.N, k0_cond7 (grid0.coords t) = 1#1 ↔ 5 < t.val :=
  (by decide +kernel : ∀ t : Fin grid0.N, k0_cond7 (grid0.coords t) = 1#1 ↔ 5 < t.val)

theorem hcond8 : ∀ t : Fin cfg0.N, k0_cond8 (grid0.coords t) = 1#1 ↔ 6 < t.val :=
  (by decide +kernel : ∀ t : Fin grid0.N, k0_cond8 (grid0.coords t) = 1#1 ↔ 6 < t.val)

theorem hcond9 : ∀ t : Fin cfg0.N, k0_cond9 (grid0.coords t) = 1#1 ↔ t.val = 7 :=
  (by decide +kernel : ∀ t : Fin grid0.N, k0_cond9 (grid0.coords t) = 1#1 ↔ t.val = 7)

theorem liveAt0 : ∀ t : Fin cfg0.N, cfg0.idle 0 (grid0.coords t) = false := by decide +kernel
theorem idleAt1 : ∀ t : Fin cfg0.N, t.val ≠ 7 → cfg0.idle 1 (grid0.coords t) = true := by decide +kernel
theorem liveAt1 : ∀ t : Fin cfg0.N, t.val = 7 → cfg0.idle 1 (grid0.coords t) = false := by decide +kernel
theorem noFlush1 : ∀ t : Fin cfg0.N, t.val ≠ 7 → (cfg0.win 1).flush t = false := by decide +kernel

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)

abbrev scM0 : Memref sig .tc .vmem S4096x1024 .bf16 := Memref.whole cc0_scratch0
abbrev scM1 : Memref sig .tc .vmem S4096x1 .f32 := Memref.whole cc0_scratch1
abbrev scM2 : Memref sig .tc .vmem S1x4096 .f32 := Memref.whole cc0_scratch2
abbrev scM3 : Memref sig .tc .vmem S4096x128 .f32 := Memref.whole cc0_scratch3
abbrev scM4 : Memref sig .tc .vmem S1x4096 .f32 := Memref.whole cc0_scratch4

theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)
          ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.KernelIdeal.Gen

end
-- ==== Proof.Runs.lean ====
import proofs.«108340_g74552042324289_cont_9to1_m_1244_4_alg».proof.Proof.Cases

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- New contents of the five scratch buffers, with a fact about them. -/
structure Found (P : Vec F S4096x1024 .bf16 → Vec F S4096x1 .f32 → Vec F S1x4096 .f32 → Vec F S4096x128 .f32 → Vec F S1x4096 .f32 → Prop) where
  n0 : Vec F S4096x1024 .bf16
  n1 : Vec F S4096x1 .f32
  n2 : Vec F S1x4096 .f32
  n3 : Vec F S4096x128 .f32
  n4 : Vec F S1x4096 .f32
  ok : P n0 n1 n2 n3 n4

/-- The body's seven operands: the arriving row block, the output cell, the five scratch buffers. -/
structure Ops where
  a1 : Memref sig .tc .vmem S512x1024 .f32
  h1 : a1.IsWhole
  a2 : Memref sig .tc .vmem S1x1 .f32
  h2 : a2.IsWhole
  a3 : Memref sig .tc .vmem S4096x1024 .bf16
  h3 : a3.IsWhole
  a4 : Memref sig .tc .vmem S4096x1 .f32
  h4 : a4.IsWhole
  a5 : Memref sig .tc .vmem S1x4096 .f32
  h5 : a5.IsWhole
  a6 : Memref sig .tc .vmem S4096x128 .f32
  h6 : a6.IsWhole
  a7 : Memref sig .tc .vmem S1x4096 .f32
  h7 : a7.IsWhole

abbrev opsAt (t : Fin cfg0.N) : Ops :=
  ⟨ms0 t, hs0 t, ms1 t, hs1 t, scM0, Memref.isWhole_whole _, scM1, Memref.isWhole_whole _, scM2, Memref.isWhole_whole _,
    scM3, Memref.isWhole_whole _, scM4, Memref.isWhole_whole _⟩

variable (c : Dev nD) (i : grid0.Coords) (B : Ops)

/-- The body's triple where the output cell comes back as found and the scratch at n0 … n4. -/
def Keeps (x0 : Vec F S512x1024 .f32) (s0 : Vec F S4096x1024 .bf16) (s1 : Vec F S4096x1 .f32) (s2 : Vec F S1x4096 .f32) (s3 : Vec F S4096x128 .f32) (s4 : Vec F S1x4096 .f32) (n0 : Vec F S4096x1024 .bf16) (n1 : Vec F S4096x1 .f32) (n2 : Vec F S1x4096 .f32) (n3 : Vec F S4096x128 .f32) (n4 : Vec F S1x4096 .f32) : Prop :=
  ∀ (o0 : Vec F S1x1 .f32) (E : Set ℕ) (K : PUnit → sProp 𝕄),
    iprop(owns (c : Thread nD τ) B.a1 fullShare x0 ∗ owns (c : Thread nD τ) B.a2 fullShare o0 ∗ owns (c : Thread nD τ) B.a3 fullShare s0 ∗ owns (c : Thread nD τ) B.a4 fullShare s1 ∗ owns (c : Thread nD τ) B.a5 fullShare s2
        ∗ owns (c : Thread nD τ) B.a6 fullShare s3 ∗ owns (c : Thread nD τ) B.a7 fullShare s4
        ∗ (iprop(owns (c : Thread nD τ) B.a1 fullShare x0 ∗ owns (c : Thread nD τ) B.a2 fullShare o0 ∗ owns (c : Thread nD τ) B.a3 fullShare n0 ∗ owns (c : Thread nD τ) B.a4 fullShare n1 ∗ owns (c : Thread nD τ) B.a5 fullShare n2
        ∗ owns (c : Thread nD τ) B.a6 fullShare n3 ∗ owns (c : Thread nD τ) B.a7 fullShare n4) -∗ K ⟨⟩))
      ⊢ wp frame (wpE (defs₀ (F := F)) Variants.none c none) E (cc0__koleo_kernel i B.a1 B.h1 B.a2 B.h2 B.a3 B.h3 B.a4 B.h4 B.a5 B.h5 B.a6 B.h6 B.a7 B.h7) K

/-- The triple where the body writes the pieces L1 into the output cell. -/
def Stores (x0 : Vec F S512x1024 .f32) (s0 : Vec F S4096x1024 .bf16) (s1 : Vec F S4096x1 .f32) (s2 : Vec F S1x4096 .f32) (s3 : Vec F S4096x128 .f32) (s4 : Vec F S1x4096 .f32) (L1 : List (View.Piece (Elt F) S1x1 .f32)) (n0 : Vec F S4096x1024 .bf16) (n1 : Vec F S4096x1 .f32) (n2 : Vec F S1x4096 .f32) (n3 : Vec F S4096x128 .f32) (n4 : Vec F S1x4096 .f32) : Prop :=
  ∀ (E : Set ℕ) (K : PUnit → sProp 𝕄),
    iprop(owns (c : Thread nD τ) B.a1 fullShare x0 ∗ (∃ d, owns (c : Thread nD τ) B.a2 fullShare d) ∗ owns (c : Thread nD τ) B.a3 fullShare s0 ∗ owns (c : Thread nD τ) B.a4 fullShare s1 ∗ owns (c : Thread nD τ) B.a5 fullShare s2
        ∗ owns (c : Thread nD τ) B.a6 fullShare s3 ∗ owns (c : Thread nD τ) B.a7 fullShare s4
        ∗ (iprop(owns (c : Thread nD τ) B.a1 fullShare x0 ∗ (∃ f, B.a2.view.loc (c : Thread nD τ) ↦[B.a2.view.set]{fullShare} B.a2.view.writes (Elt F) f L1) ∗ owns (c : Thread nD τ) B.a3 fullShare n0 ∗ owns (c : Thread nD τ) B.a4 fullShare n1 ∗ owns (c : Thread nD τ) B.a5 fullShare n2
        ∗ owns (c : Thread nD τ) B.a6 fullShare n3 ∗ owns (c : Thread nD τ) B.a7 fullShare n4) -∗ K ⟨⟩))
      ⊢ wp frame (wpE (defs₀ (F := F)) Variants.none c none) E (cc0__koleo_kernel i B.a1 B.h1 B.a2 B.h2 B.a3 B.h3 B.a4 B.h4 B.a5 B.h5 B.a6 B.h6 B.a7 B.h7) K

theorem owns_read {sp : Space} {S : Shape} {e : EltTy} (a : Memref sig .tc sp S e) (f : a.view.ty.Contents (Elt F)) :
    (a.view.loc (c : Thread nD τ) ↦[a.view.set]{fullShare} f : sProp 𝕄)
      ⊢ iprop(∃ g, ⌜a.view.read (Elt F) g = a.view.read (Elt F) f⌝ ∗ a.view.loc (c : Thread nD τ) ↦[a.view.set]{fullShare} g) := by
  iintro H; iexists f; isplitr; · ipureintro; rfl
  iexact H

set_option maxHeartbeats 8000000 in
/-- Point g's conditionals are fixed, so its body is a straight line; the run finds what its stores leave in the scratch. -/
def kernelRun0 (hc1 : cond1 i) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun1 (hc1 : ¬cond1 i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun2 (hc1 : ¬cond1 i) (hc2 : k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun3 (hc1 : ¬cond1 i) (hc2 : k0_cond2 i = 1#1) (hc3 : k0_cond3 i = 1#1) (hc4 : k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun4 (hc1 : ¬cond1 i) (hc2 : k0_cond2 i = 1#1) (hc3 : k0_cond3 i = 1#1) (hc4 : k0_cond4 i = 1#1) (hc5 : k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun5 (hc1 : ¬cond1 i) (hc2 : k0_cond2 i = 1#1) (hc3 : k0_cond3 i = 1#1) (hc4 : k0_cond4 i = 1#1) (hc5 : k0_cond5 i = 1#1) (hc6 : k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun6 (hc1 : ¬cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun7 (hc1 : ¬cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : k0_cond8 i = 1#1) (hc9 : k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Σ' L1, Found (Stores c i B x0 s0 s1 s2 s3 s4 L1) := by
  refine ⟨?_, ?_, ?_, ?_, ?_, ?_, fun E K => ?run⟩
  case run =>
    simp only [cc0__koleo_kernel_eq_skeleton]; unfold cc0__koleo_kernel_skel
    unfold owns
    iintro ⟨⟨%f1, %hf1, H1⟩, ⟨%d2, %f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; iexact H2
    isplitl [H3]; · iapply owns_read; iexact H3
    isplitl [H4]; · iapply owns_read; iexact H4
    isplitl [H5]; · iapply owns_read; iexact H5
    isplitl [H6]; · iapply owns_read; iexact H6
    iapply owns_read; iexact H7

end Cert.KernelIdeal.Gen

end
-- ==== Proof.FrameRel.lean ====
import proofs.«108340_g74552042324289_cont_9to1_m_1244_4_alg».proof.Proof.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A frame asks nothing of the scratch or of the output cell: any contents are related. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

def bodyPre (c : Dev nD) (t : Fin cfg0.N) (Y0 : Vec F S512x1024 .f32) (Y1 : Vec F S1x1 .f32) : sProp 𝕄 :=
  iprop(Pipeline.ΦA spec0 c ∗ (rdat m c).owesAt () t.castSucc
    ∗ owns (c : Thread nD τ) (ms0 t) fullShare Y0 ∗ owns (c : Thread nD τ) (ms1 t) fullShare Y1)

def bodyPost (c : Dev nD) (t : Fin cfg0.N) : sProp 𝕄 :=
  iprop(Pipeline.ΦA spec0 c ∗ (rdat m c).owesAt () t.castSucc
    ∗ (∃ X, ⌜True⌝ ∗ owns (c : Thread nD τ) (ms0 t) fullShare X) ∗ (∃ X, ⌜True⌝ ∗ owns (c : Thread nD τ) (ms1 t) fullShare X))

/-- A point whose body returns every buffer at something meets the obligation. -/
theorem body_of_keeps (c : Dev nD) (t : Fin cfg0.N) (Y0 : Vec F S512x1024 .f32) (Y1 : Vec F S1x1 .f32)
    (h : ∀ s0 s1 s2 s3 s4, Found (Keeps c (grid0.coords t) (opsAt t) Y0 s0 s1 s2 s3 s4)) :
    bodyPre m c t Y0 Y1 ⊢ wp frame (wpE (defs₀ (F := F)) Variants.none c none) Set.univ (bodyAt0 t) (fun _ => bodyPost m c t) := by
  unfold bodyPre bodyPost bodyAt0
  rw [PhiA0_eq]
  iintro ⟨⟨⟨⟨%d0, HS0⟩, ⟨%d1, HS1⟩, ⟨%d2, HS2⟩, ⟨%d3, HS3⟩, ⟨%d4, HS4⟩⟩, Hg⟩, Ho, H0, H1⟩
  iapply ((h d0 d1 d2 d3 d4).ok Y1 Set.univ _)
  isplitl [H0]; · iexact H0
  isplitl [H1]; · iexact H1
  isplitl [HS0]; · iexact HS0
  isplitl [HS1]; · iexact HS1
  isplitl [HS2]; · iexact HS2
  isplitl [HS3]; · iexact HS3
  isplitl [HS4]; · iexact HS4
  iintro ⟨H0, H1, HS0, HS1, HS2, HS3, HS4⟩
  isplitl [HS0 HS1 HS2 HS3 HS4 Hg]
  · isplitr [Hg]
    · isplitl [HS0]; · iexists _; iexact HS0
      isplitl [HS1]; · iexists _; iexact HS1
      isplitl [HS2]; · iexists _; iexact HS2
      isplitl [HS3]; · iexists _; iexact HS3
      iexists _; iexact HS4
    · iexact Hg
  isplitl [Ho]; · iexact Ho
  isplitl [H0]
  · iexists _; isplitr; · ipureintro; trivial
    iexact H0
  iexists _; isplitr; · ipureintro; trivial
  iexact H1

theorem body_7 (c : Dev nD) (t : Fin cfg0.N) (ht : t.val = 7) (Y0 : Vec F S512x1024 .f32) (Y1 : Vec F S1x1 .f32) :
    bodyPre m c t Y0 Y1 ⊢ wp frame (wpE (defs₀ (F := F)) Variants.none c none) Set.univ (bodyAt0 t) (fun _ => bodyPost m c t) := by
  unfold bodyPre bodyPost bodyAt0
  rw [PhiA0_eq]
  iintro ⟨⟨⟨⟨%d0, HS0⟩, ⟨%d1, HS1⟩, ⟨%d2, HS2⟩, ⟨%d3, HS3⟩, ⟨%d4, HS4⟩⟩, Hg⟩, Ho, H0, H1⟩
  iapply ((kernelRun7 c (grid0.coords t) (opsAt t) (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 d0 d1 d2 d3 d4).2.ok Set.univ _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  iintro ⟨H0, ⟨%f, H1⟩, HS0, HS1, HS2, HS3, HS4⟩
  isplitl [HS0 HS1 HS2 HS3 HS4 Hg]
  · isplitr [Hg]
    · isplitl [HS0]; · iexists _; iexact HS0
      isplitl [HS1]; · iexists _; iexact HS1
      isplitl [HS2]; · iexists _; iexact HS2
      isplitl [HS3]; · iexists _; iexact HS3
      iexists _; iexact HS4
    · iexact Hg
  isplitl [Ho]; · iexact Ho
  isplitl [H0]
  · iexists _; isplitr; · ipureintro; trivial
    iexact H0
  iexists _; isplitr; · ipureintro; trivial
  unfold owns; iexists _; isplitr; swap; · iexact H1
  ipureintro; rfl

theorem sound_body (c : Dev nD) (t : Fin cfg0.N) (Y0 : Vec F S512x1024 .f32) (Y1 : Vec F S1x1 .f32) :
    bodyPre m c t Y0 Y1 ⊢ wp frame (wpE (defs₀ (F := F)) Variants.none c none) Set.univ (bodyAt0 t) (fun _ => bodyPost m c t) := by
  have hN : t.val < 8 := lt_of_lt_of_eq t.isLt (show cfg0.N = 8 from N_0)
  rcases (by omega : t.val = 0 ∨ t.val = 1 ∨ t.val = 2 ∨ t.val = 3 ∨ t.val = 4 ∨ t.val = 5 ∨ t.val = 6 ∨ t.val = 7)
    with h | h | h | h | h | h | h | h
  · exact body_of_keeps m c t Y0 Y1 fun s0 s1 s2 s3 s4 => kernelRun0 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun1 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun2 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun3 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun4 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun5 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun6 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_7 m c t h Y0 Y1

theorem body_obligation (c : Dev nD) : (rdat (F := F) m c).BodyObligation (defs₀ (F := F)) Variants.none () Set.univ := fun t Y _ => by
  rw [bigSep_W0, bigSep_W0]
  exact sound_body m c t (Y 0) (Y 1)

theorem sfx_T : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective (τ := τ) _ hb)

theorem share_full (c : Dev nD) (w : Fin cfg0.W) : (rdat m c).share w = fullShare := by
  unfold RDat.share; split <;> rfl

set_option backward.isDefEq.respectTransparency.types false in

theorem run_main : θ_run defs (onTc (τ := τ) (main (F := F))) (s₀ m ρ)
    (Pipeline.RDat.FramePostR cfg0 (rdat m) {main_v1} (fun c b => V0 m c (Proc.devRef .tc b))) :=
  Pipeline.RDat.θ_run_frame_around_T cfgs (0 : Fin 1) launch0 defs₀ Variants.none (rdat m) {main_v1} m ρ main
    (hbody := body_obligation m) (hshare := share_full m) (howed := fun _ _ => rfl)
    (V₀ := V0 m) (opss := [hostOps1]) (hsub := sfx_sub) (hfresh := sfx_fresh) (hkeep := sfx_keeps) (hT := sfx_T)
    (hmain := hmain m Variants.none) (hA := fun _ _ => rfl) (hΦ := fun _ _ => rfl)

/-- The argument is only read, so it ends as the program found it. -/
theorem frame_rel : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePostR.arr_in h c 0 rfl).trans (V_main_arg0 m c)) (run_main m ρ)

end Cert.KernelIdeal.Gen

end
-- ==== Proof.CasesK.lean ====
import proofs.«108340_g74552042324289_cont_9to1_m_1244_4_alg».proof.Proof.Gen.Kernel.Frame
import proofs.«108340_g74552042324289_cont_9to1_m_1244_4_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid0.Coords) : Prop :=
  (Scalar.cmpi .ne (Scalar.extui (Scalar.cmpi .eq (BitVec.ofNat 32 (i 0).val) 0#32)) 0#32) = 1#1

/-- Which conditionals a grid point takes: the reset at 0, tile (g, i) when i < g, the final reduction at 7. -/
theorem hcond1 : ∀ t : Fin cfg0.N, cond1 (grid0.coords t) ↔ t.val = 0 :=
  (by decide +kernel : ∀ t : Fin grid0.N, cond1 (grid0.coords t) ↔ t.val = 0)

theorem hcond2 : ∀ t : Fin cfg0.N, k0_cond2 (grid0.coords t) = 1#1 ↔ 0 < t.val :=
  (by decide +kernel : ∀ t : Fin grid0.N, k0_cond2 (grid0.coords t) = 1#1 ↔ 0 < t.val)
theorem hcond3 : ∀ t : Fin cfg0.N, k0_cond3 (grid0.coords t) = 1#1 ↔ 1 < t.val :=
  (by decide +kernel : ∀ t : Fin grid0.N, k0_cond3 (grid0.coords t) = 1#1 ↔ 1 < t.val)
theorem hcond4 : ∀ t : Fin cfg0.N, k0_cond4 (grid0.coords t) = 1#1 ↔ 2 < t.val :=
  (by decide +kernel : ∀ t : Fin grid0.N, k0_cond4 (grid0.coords t) = 1#1 ↔ 2 < t.val)
theorem hcond5 : ∀ t : Fin cfg0.N, k0_cond5 (grid0.coords t) = 1#1 ↔ 3 < t.val :=
  (by decide +kernel : ∀ t : Fin grid0.N, k0_cond5 (grid0.coords t) = 1#1 ↔ 3 < t.val)
theorem hcond6 : ∀ t : Fin cfg0.N, k0_cond6 (grid0.coords t) = 1#1 ↔ 4 < t.val :=
  (by decide +kernel : ∀ t : Fin grid0.N, k0_cond6 (grid0.coords t) = 1#1 ↔ 4 < t.val)
theorem hcond7 : ∀ t : Fin cfg0.N, k0_cond7 (grid0.coords t) = 1#1 ↔ 5 < t.val :=
  (by decide +kernel : ∀ t : Fin grid0.N, k0_cond7 (grid0.coords t) = 1#1 ↔ 5 < t.val)

theorem hcond8 : ∀ t : Fin cfg0.N, k0_cond8 (grid0.coords t) = 1#1 ↔ 6 < t.val :=
  (by decide +kernel : ∀ t : Fin grid0.N, k0_cond8 (grid0.coords t) = 1#1 ↔ 6 < t.val)

theorem hcond9 : ∀ t : Fin cfg0.N, k0_cond9 (grid0.coords t) = 1#1 ↔ t.val = 7 :=
  (by decide +kernel : ∀ t : Fin grid0.N, k0_cond9 (grid0.coords t) = 1#1 ↔ t.val = 7)

theorem liveAt0 : ∀ t : Fin cfg0.N, cfg0.idle 0 (grid0.coords t) = false := by decide +kernel
theorem idleAt1 : ∀ t : Fin cfg0.N, t.val ≠ 7 → cfg0.idle 1 (grid0.coords t) = true := by decide +kernel
theorem liveAt1 : ∀ t : Fin cfg0.N, t.val = 7 → cfg0.idle 1 (grid0.coords t) = false := by decide +kernel
theorem noFlush1 : ∀ t : Fin cfg0.N, t.val ≠ 7 → (cfg0.win 1).flush t = false := by decide +kernel

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)

abbrev scM0 : Memref sig .tc .vmem S4096x1024 .bf16 := Memref.whole cc0_scratch0
abbrev scM1 : Memref sig .tc .vmem S4096x1 .f32 := Memref.whole cc0_scratch1
abbrev scM2 : Memref sig .tc .vmem S1x4096 .f32 := Memref.whole cc0_scratch2
abbrev scM3 : Memref sig .tc .vmem S4096x128 .f32 := Memref.whole cc0_scratch3
abbrev scM4 : Memref sig .tc .vmem S1x4096 .f32 := Memref.whole cc0_scratch4

theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)
          ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.Kernel.Gen

end
-- ==== Proof.RunsK.lean ====
import proofs.«108340_g74552042324289_cont_9to1_m_1244_4_alg».proof.Proof.CasesK

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- New contents of the five scratch buffers, with a fact about them. -/
structure Found (P : Vec F S4096x1024 .bf16 → Vec F S4096x1 .f32 → Vec F S1x4096 .f32 → Vec F S4096x128 .f32 → Vec F S1x4096 .f32 → Prop) where
  n0 : Vec F S4096x1024 .bf16
  n1 : Vec F S4096x1 .f32
  n2 : Vec F S1x4096 .f32
  n3 : Vec F S4096x128 .f32
  n4 : Vec F S1x4096 .f32
  ok : P n0 n1 n2 n3 n4

/-- The body's seven operands: the arriving row block, the output cell, the five scratch buffers. -/
structure Ops where
  a1 : Memref sig .tc .vmem S512x1024 .f32
  h1 : a1.IsWhole
  a2 : Memref sig .tc .vmem S1x1 .f32
  h2 : a2.IsWhole
  a3 : Memref sig .tc .vmem S4096x1024 .bf16
  h3 : a3.IsWhole
  a4 : Memref sig .tc .vmem S4096x1 .f32
  h4 : a4.IsWhole
  a5 : Memref sig .tc .vmem S1x4096 .f32
  h5 : a5.IsWhole
  a6 : Memref sig .tc .vmem S4096x128 .f32
  h6 : a6.IsWhole
  a7 : Memref sig .tc .vmem S1x4096 .f32
  h7 : a7.IsWhole

abbrev opsAt (t : Fin cfg0.N) : Ops :=
  ⟨ms0 t, hs0 t, ms1 t, hs1 t, scM0, Memref.isWhole_whole _, scM1, Memref.isWhole_whole _, scM2, Memref.isWhole_whole _,
    scM3, Memref.isWhole_whole _, scM4, Memref.isWhole_whole _⟩

variable (c : Dev nD) (i : grid0.Coords) (B : Ops)

/-- The body's triple where the output cell comes back as found and the scratch at n0 … n4. -/
def Keeps (x0 : Vec F S512x1024 .f32) (s0 : Vec F S4096x1024 .bf16) (s1 : Vec F S4096x1 .f32) (s2 : Vec F S1x4096 .f32) (s3 : Vec F S4096x128 .f32) (s4 : Vec F S1x4096 .f32) (n0 : Vec F S4096x1024 .bf16) (n1 : Vec F S4096x1 .f32) (n2 : Vec F S1x4096 .f32) (n3 : Vec F S4096x128 .f32) (n4 : Vec F S1x4096 .f32) : Prop :=
  ∀ (o0 : Vec F S1x1 .f32) (E : Set ℕ) (K : PUnit → sProp 𝕄),
    iprop(owns (c : Thread nD τ) B.a1 fullShare x0 ∗ owns (c : Thread nD τ) B.a2 fullShare o0 ∗ owns (c : Thread nD τ) B.a3 fullShare s0 ∗ owns (c : Thread nD τ) B.a4 fullShare s1 ∗ owns (c : Thread nD τ) B.a5 fullShare s2
        ∗ owns (c : Thread nD τ) B.a6 fullShare s3 ∗ owns (c : Thread nD τ) B.a7 fullShare s4
        ∗ (iprop(owns (c : Thread nD τ) B.a1 fullShare x0 ∗ owns (c : Thread nD τ) B.a2 fullShare o0 ∗ owns (c : Thread nD τ) B.a3 fullShare n0 ∗ owns (c : Thread nD τ) B.a4 fullShare n1 ∗ owns (c : Thread nD τ) B.a5 fullShare n2
        ∗ owns (c : Thread nD τ) B.a6 fullShare n3 ∗ owns (c : Thread nD τ) B.a7 fullShare n4) -∗ K ⟨⟩))
      ⊢ wp frame (wpE (defs₀ (F := F)) Variants.none c none) E (cc0__koleo_kernel i B.a1 B.h1 B.a2 B.h2 B.a3 B.h3 B.a4 B.h4 B.a5 B.h5 B.a6 B.h6 B.a7 B.h7) K

/-- The triple where the body writes the pieces L1 into the output cell. -/
def Stores (x0 : Vec F S512x1024 .f32) (s0 : Vec F S4096x1024 .bf16) (s1 : Vec F S4096x1 .f32) (s2 : Vec F S1x4096 .f32) (s3 : Vec F S4096x128 .f32) (s4 : Vec F S1x4096 .f32) (L1 : List (View.Piece (Elt F) S1x1 .f32)) (n0 : Vec F S4096x1024 .bf16) (n1 : Vec F S4096x1 .f32) (n2 : Vec F S1x4096 .f32) (n3 : Vec F S4096x128 .f32) (n4 : Vec F S1x4096 .f32) : Prop :=
  ∀ (E : Set ℕ) (K : PUnit → sProp 𝕄),
    iprop(owns (c : Thread nD τ) B.a1 fullShare x0 ∗ (∃ d, owns (c : Thread nD τ) B.a2 fullShare d) ∗ owns (c : Thread nD τ) B.a3 fullShare s0 ∗ owns (c : Thread nD τ) B.a4 fullShare s1 ∗ owns (c : Thread nD τ) B.a5 fullShare s2
        ∗ owns (c : Thread nD τ) B.a6 fullShare s3 ∗ owns (c : Thread nD τ) B.a7 fullShare s4
        ∗ (iprop(owns (c : Thread nD τ) B.a1 fullShare x0 ∗ (∃ f, B.a2.view.loc (c : Thread nD τ) ↦[B.a2.view.set]{fullShare} B.a2.view.writes (Elt F) f L1) ∗ owns (c : Thread nD τ) B.a3 fullShare n0 ∗ owns (c : Thread nD τ) B.a4 fullShare n1 ∗ owns (c : Thread nD τ) B.a5 fullShare n2
        ∗ owns (c : Thread nD τ) B.a6 fullShare n3 ∗ owns (c : Thread nD τ) B.a7 fullShare n4) -∗ K ⟨⟩))
      ⊢ wp frame (wpE (defs₀ (F := F)) Variants.none c none) E (cc0__koleo_kernel i B.a1 B.h1 B.a2 B.h2 B.a3 B.h3 B.a4 B.h4 B.a5 B.h5 B.a6 B.h6 B.a7 B.h7) K

theorem owns_read {sp : Space} {S : Shape} {e : EltTy} (a : Memref sig .tc sp S e) (f : a.view.ty.Contents (Elt F)) :
    (a.view.loc (c : Thread nD τ) ↦[a.view.set]{fullShare} f : sProp 𝕄)
      ⊢ iprop(∃ g, ⌜a.view.read (Elt F) g = a.view.read (Elt F) f⌝ ∗ a.view.loc (c : Thread nD τ) ↦[a.view.set]{fullShare} g) := by
  iintro H; iexists f; isplitr; · ipureintro; rfl
  iexact H

set_option maxHeartbeats 8000000 in
/-- Point g's conditionals are fixed, so its body is a straight line; the run finds what its stores leave in the scratch. -/
def kernelRun0 (hc1 : cond1 i) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun1 (hc1 : ¬cond1 i) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun2 (hc1 : ¬cond1 i) (hc2 : k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun3 (hc1 : ¬cond1 i) (hc2 : k0_cond2 i = 1#1) (hc3 : k0_cond3 i = 1#1) (hc4 : k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun4 (hc1 : ¬cond1 i) (hc2 : k0_cond2 i = 1#1) (hc3 : k0_cond3 i = 1#1) (hc4 : k0_cond4 i = 1#1) (hc5 : k0_cond5 i = 1#1) (hc6 : ¬k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun5 (hc1 : ¬cond1 i) (hc2 : k0_cond2 i = 1#1) (hc3 : k0_cond3 i = 1#1) (hc4 : k0_cond4 i = 1#1) (hc5 : k0_cond5 i = 1#1) (hc6 : k0_cond6 i = 1#1) (hc7 : ¬k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun6 (hc1 : ¬cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : ¬k0_cond8 i = 1#1) (hc9 : ¬k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Found (Keeps c i B x0 s0 s1 s2 s3 s4) := by
  refine ⟨?_, ?_, ?_, ?_, ?_, fun o0 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; isplitr; · ipureintro; exact B.h2.read_unread _
      iexact H2
    isplitl [H3]; · iapply owns_read; iexact H3
    isplitl [H4]; · iapply owns_read; iexact H4
    isplitl [H5]; · iapply owns_read; iexact H5
    isplitl [H6]; · iapply owns_read; iexact H6
    iapply owns_read; iexact H7

set_option maxHeartbeats 8000000 in
def kernelRun7 (hc1 : ¬cond1 i) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : k0_cond8 i = 1#1) (hc9 : k0_cond9 i = 1#1)
    (x0 : Vec F S512x1024 .f32) (s0 : Vec F S4096x1024 .bf16) (s1 : Vec F S4096x1 .f32) (s2 : Vec F S1x4096 .f32) (s3 : Vec F S4096x128 .f32) (s4 : Vec F S1x4096 .f32) : Σ' L1, Found (Stores c i B x0 s0 s1 s2 s3 s4 L1) := by
  refine ⟨?_, ?_, ?_, ?_, ?_, ?_, fun E K => ?run⟩
  case run =>
    simp only [cc0__koleo_kernel_eq_skeleton]; unfold cc0__koleo_kernel_skel
    unfold owns
    iintro ⟨⟨%f1, %hf1, H1⟩, ⟨%d2, %f2, %hf2, H2⟩, ⟨%f3, %hf3, H3⟩, ⟨%f4, %hf4, H4⟩, ⟨%f5, %hf5, H5⟩, ⟨%f6, %hf6, H6⟩, ⟨%f7, %hf7, H7⟩, Hk⟩
    obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7
    sl_exec (disch := first | exact hc1 | exact hc2 | exact hc3 | exact hc4 | exact hc5 | exact hc6 | exact hc7 | exact hc8 | exact hc9)
    sl_step
    iapply Hk
    isplitl [H1]
    · iexists _; isplitr; · ipureintro; exact B.h1.read_unread _
      iexact H1
    isplitl [H2]
    · iexists _; iexact H2
    isplitl [H3]; · iapply owns_read; iexact H3
    isplitl [H4]; · iapply owns_read; iexact H4
    isplitl [H5]; · iapply owns_read; iexact H5
    isplitl [H6]; · iapply owns_read; iexact H6
    iapply owns_read; iexact H7

end Cert.Kernel.Gen

end
-- ==== Proof.FrameRelK.lean ====
import proofs.«108340_g74552042324289_cont_9to1_m_1244_4_alg».proof.Proof.RunsK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A frame asks nothing of the scratch or of the output cell: any contents are related. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

def bodyPre (c : Dev nD) (t : Fin cfg0.N) (Y0 : Vec F S512x1024 .f32) (Y1 : Vec F S1x1 .f32) : sProp 𝕄 :=
  iprop(Pipeline.ΦA spec0 c ∗ (rdat m c).owesAt () t.castSucc
    ∗ owns (c : Thread nD τ) (ms0 t) fullShare Y0 ∗ owns (c : Thread nD τ) (ms1 t) fullShare Y1)

def bodyPost (c : Dev nD) (t : Fin cfg0.N) : sProp 𝕄 :=
  iprop(Pipeline.ΦA spec0 c ∗ (rdat m c).owesAt () t.castSucc
    ∗ (∃ X, ⌜True⌝ ∗ owns (c : Thread nD τ) (ms0 t) fullShare X) ∗ (∃ X, ⌜True⌝ ∗ owns (c : Thread nD τ) (ms1 t) fullShare X))

/-- A point whose body returns every buffer at something meets the obligation. -/
theorem body_of_keeps (c : Dev nD) (t : Fin cfg0.N) (Y0 : Vec F S512x1024 .f32) (Y1 : Vec F S1x1 .f32)
    (h : ∀ s0 s1 s2 s3 s4, Found (Keeps c (grid0.coords t) (opsAt t) Y0 s0 s1 s2 s3 s4)) :
    bodyPre m c t Y0 Y1 ⊢ wp frame (wpE (defs₀ (F := F)) Variants.none c none) Set.univ (bodyAt0 t) (fun _ => bodyPost m c t) := by
  unfold bodyPre bodyPost bodyAt0
  rw [PhiA0_eq]
  iintro ⟨⟨⟨⟨%d0, HS0⟩, ⟨%d1, HS1⟩, ⟨%d2, HS2⟩, ⟨%d3, HS3⟩, ⟨%d4, HS4⟩⟩, Hg⟩, Ho, H0, H1⟩
  iapply ((h d0 d1 d2 d3 d4).ok Y1 Set.univ _)
  isplitl [H0]; · iexact H0
  isplitl [H1]; · iexact H1
  isplitl [HS0]; · iexact HS0
  isplitl [HS1]; · iexact HS1
  isplitl [HS2]; · iexact HS2
  isplitl [HS3]; · iexact HS3
  isplitl [HS4]; · iexact HS4
  iintro ⟨H0, H1, HS0, HS1, HS2, HS3, HS4⟩
  isplitl [HS0 HS1 HS2 HS3 HS4 Hg]
  · isplitr [Hg]
    · isplitl [HS0]; · iexists _; iexact HS0
      isplitl [HS1]; · iexists _; iexact HS1
      isplitl [HS2]; · iexists _; iexact HS2
      isplitl [HS3]; · iexists _; iexact HS3
      iexists _; iexact HS4
    · iexact Hg
  isplitl [Ho]; · iexact Ho
  isplitl [H0]
  · iexists _; isplitr; · ipureintro; trivial
    iexact H0
  iexists _; isplitr; · ipureintro; trivial
  iexact H1

theorem body_7 (c : Dev nD) (t : Fin cfg0.N) (ht : t.val = 7) (Y0 : Vec F S512x1024 .f32) (Y1 : Vec F S1x1 .f32) :
    bodyPre m c t Y0 Y1 ⊢ wp frame (wpE (defs₀ (F := F)) Variants.none c none) Set.univ (bodyAt0 t) (fun _ => bodyPost m c t) := by
  unfold bodyPre bodyPost bodyAt0
  rw [PhiA0_eq]
  iintro ⟨⟨⟨⟨%d0, HS0⟩, ⟨%d1, HS1⟩, ⟨%d2, HS2⟩, ⟨%d3, HS3⟩, ⟨%d4, HS4⟩⟩, Hg⟩, Ho, H0, H1⟩
  iapply ((kernelRun7 c (grid0.coords t) (opsAt t) (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 d0 d1 d2 d3 d4).2.ok Set.univ _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  iintro ⟨H0, ⟨%f, H1⟩, HS0, HS1, HS2, HS3, HS4⟩
  isplitl [HS0 HS1 HS2 HS3 HS4 Hg]
  · isplitr [Hg]
    · isplitl [HS0]; · iexists _; iexact HS0
      isplitl [HS1]; · iexists _; iexact HS1
      isplitl [HS2]; · iexists _; iexact HS2
      isplitl [HS3]; · iexists _; iexact HS3
      iexists _; iexact HS4
    · iexact Hg
  isplitl [Ho]; · iexact Ho
  isplitl [H0]
  · iexists _; isplitr; · ipureintro; trivial
    iexact H0
  iexists _; isplitr; · ipureintro; trivial
  unfold owns; iexists _; isplitr; swap; · iexact H1
  ipureintro; rfl

theorem sound_body (c : Dev nD) (t : Fin cfg0.N) (Y0 : Vec F S512x1024 .f32) (Y1 : Vec F S1x1 .f32) :
    bodyPre m c t Y0 Y1 ⊢ wp frame (wpE (defs₀ (F := F)) Variants.none c none) Set.univ (bodyAt0 t) (fun _ => bodyPost m c t) := by
  have hN : t.val < 8 := lt_of_lt_of_eq t.isLt (show cfg0.N = 8 from N_0)
  rcases (by omega : t.val = 0 ∨ t.val = 1 ∨ t.val = 2 ∨ t.val = 3 ∨ t.val = 4 ∨ t.val = 5 ∨ t.val = 6 ∨ t.val = 7)
    with h | h | h | h | h | h | h | h
  · exact body_of_keeps m c t Y0 Y1 fun s0 s1 s2 s3 s4 => kernelRun0 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun1 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun2 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun3 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun4 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun5 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_of_keeps m c t Y0 Y1 fun s0 s1 s2 s3 s4 => kernelRun6 c _ _ (by rw [hcond1]; omega) (by rw [hcond2]; omega) (by rw [hcond3]; omega) (by rw [hcond4]; omega) (by rw [hcond5]; omega) (by rw [hcond6]; omega) (by rw [hcond7]; omega) (by rw [hcond8]; omega) (by rw [hcond9]; omega) Y0 s0 s1 s2 s3 s4
  · exact body_7 m c t h Y0 Y1

theorem body_obligation (c : Dev nD) : (rdat (F := F) m c).BodyObligation (defs₀ (F := F)) Variants.none () Set.univ := fun t Y _ => by
  rw [bigSep_W0, bigSep_W0]
  exact sound_body m c t (Y 0) (Y 1)

theorem sfx_T : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective (τ := τ) _ hb)

theorem share_full (c : Dev nD) (w : Fin cfg0.W) : (rdat m c).share w = fullShare := by
  unfold RDat.share; split <;> rfl

set_option backward.isDefEq.respectTransparency.types false in

theorem run_main : θ_run defs (onTc (τ := τ) (main (F := F))) (s₀ m ρ)
    (Pipeline.RDat.FramePostR cfg0 (rdat m) {main_v1} (fun c b => V0 m c (Proc.devRef .tc b))) :=
  Pipeline.RDat.θ_run_frame_around_T cfgs (0 : Fin 1) launch0 defs₀ Variants.none (rdat m) {main_v1} m ρ main
    (hbody := body_obligation m) (hshare := share_full m) (howed := fun _ _ => rfl)
    (V₀ := V0 m) (opss := [hostOps1]) (hsub := sfx_sub) (hfresh := sfx_fresh) (hkeep := sfx_keeps) (hT := sfx_T)
    (hmain := hmain m Variants.none) (hA := fun _ _ => rfl) (hΦ := fun _ _ => rfl)

/-- The argument is only read, so it ends as the program found it. -/
theorem frame_rel : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePostR.arr_in h c 0 rfl).trans (V_main_arg0 m c)) (run_main m ρ)

end Cert.Kernel.Gen

end
-- ==== Proof.Spec.lean ====
import Idealize.ShloMosaic.PureOps.Ideal
import Idealize.ShloMosaic.PureOps.Ideal.Laws
import Idealize.ShloMosaic.Lib.ValueIdx

noncomputable section

namespace Cert.KoLeo

open Idealize.ShloMosaic
open scoped BigOperators

abbrev Mat : Type := Fin 4096 → Fin 1024 → EReal

def mat (x0 : (⟨2, ![4096, 1024]⟩ : Shape).Idx → EReal) : Mat := fun r k => x0 (ValueIdx.ix2 r k)

abbrev ZERO : EReal := Ideal.ofBits .f32 0x00000000#32
abbrev INF : EReal := Ideal.ofBits .f32 0x7F800000#32
abbrev TWO : EReal := Ideal.ofBits .f32 0x40000000#32
abbrev MTWO : EReal := Ideal.ofBits .f32 0xC0000000#32
abbrev EPS : EReal := Ideal.ofBits .f32 0x322BCC77#32
abbrev N4096 : EReal := Ideal.ofBits .f32 0x45800000#32
abbrev MINV : EReal := Ideal.ofBits .f32 0xB9800000#32

/-- A row's squared norm, two rows' inner product, and the same against the doubled negative of the second row. -/
def sqn (x : Mat) (r : Fin 4096) : EReal := ∑ k : Fin 1024, x r k * x r k

def gram (x : Mat) (r c : Fin 4096) : EReal := ∑ k : Fin 1024, x r k * x c k

def gpk (x : Mat) (r c : Fin 4096) : EReal := ∑ k : Fin 1024, x r k * (MTWO * x c k)

/-- The reference: squared distances clamped at 0, the diagonal at +∞, each row's minimum of their roots, the mean of logs. -/
def refSq (x : Mat) (r : Fin 4096) : EReal := ZERO + sqn x r

def refD (x : Mat) (r c : Fin 4096) : EReal :=
  if r = c then INF else max ((refSq x r + refSq x c) - TWO * gram x r c) ZERO

def refMin (x : Mat) (r : Fin 4096) : EReal :=
  (Finset.univ : Finset (Fin 4096)).fold min INF (fun c => Ideal.sqrt (refD x r c))

def Gref (x : Mat) : EReal := -(Ideal.div (ZERO + ∑ r : Fin 4096, Ideal.log (refMin x r + EPS)) N4096)

/-- The block of 512 rows, and the half of 256 rows within it, that an index lies in. -/
def blk (r : Fin 4096) : ℕ := r.val / 512
def half (r : Fin 4096) : ℕ := (r.val % 512) / 256

/-- The term row r takes from column c on the row side, and column c from row r' on the column side. -/
def T1 (x : Mat) (r c : Fin 4096) : EReal := sqn x c + gpk x r c
def T2 (x : Mat) (r' c : Fin 4096) : EReal := sqn x r' + gpk x r' c

/-- The columns row r meets on the row side and the rows column c meets on the column side: together every index but r, once. -/
def rowSet (r : Fin 4096) : Finset (Fin 4096) :=
  Finset.univ.filter fun c => c ≠ r ∧ (blk c < blk r ∨ (blk c = blk r ∧ half c ≤ half r))
def colSet (c : Fin 4096) : Finset (Fin 4096) :=
  Finset.univ.filter fun r' => blk c < blk r' ∨ (blk r' = blk c ∧ half c < half r')

/-- The kernel: both minima with the row's own squared norm added, clamped at 0; then the sum of logs, scaled. -/
def kerRowMin (x : Mat) (r : Fin 4096) : EReal := (rowSet r).inf (T1 x r)
def kerColMin (x : Mat) (c : Fin 4096) : EReal := (colSet c).inf (fun r' => T2 x r' c)

def kerMd2 (x : Mat) (r : Fin 4096) : EReal :=
  max (min (kerRowMin x r + sqn x r) (kerColMin x r + sqn x r)) ZERO

def Gker (x : Mat) : EReal := (∑ r : Fin 4096, Ideal.log (Ideal.sqrt (kerMd2 x r) + EPS)) * MINV

/-- The scratch state: the doubled negative rows, the squared norms twice, running row minima by lane, running column minima. -/
structure St where
  xm2 : Fin 4096 → Fin 1024 → EReal
  sqr : Fin 4096 → EReal
  sqc : Fin 4096 → EReal
  racc : Fin 4096 → Fin 128 → EReal
  cacc : Fin 4096 → EReal

def St.ofVecs (s0 : (⟨2, ![4096, 1024]⟩ : Shape).Idx → EReal) (s1 : (⟨2, ![4096, 1]⟩ : Shape).Idx → EReal)
    (s2 : (⟨2, ![1, 4096]⟩ : Shape).Idx → EReal) (s3 : (⟨2, ![4096, 128]⟩ : Shape).Idx → EReal)
    (s4 : (⟨2, ![1, 4096]⟩ : Shape).Idx → EReal) : St where
  xm2 r k := s0 (ValueIdx.ix2 r k)
  sqr r := s1 (ValueIdx.ix2 r 0)
  sqc r := s2 (ValueIdx.ix2 0 r)
  racc r l := s3 (ValueIdx.ix2 r l)
  cacc c := s4 (ValueIdx.ix2 0 c)

/-- What row r has met in lane l, and column c at all, once blocks 0..g are swept. -/
def rowSetL (g : ℕ) (r : Fin 4096) (l : Fin 128) : Finset (Fin 4096) :=
  (rowSet r).filter fun c => blk r ≤ g ∧ c.val % 128 = l.val
def colSetG (g : ℕ) (c : Fin 4096) : Finset (Fin 4096) :=
  (colSet c).filter fun r' => blk r' ≤ g

/-- After block g: the swept rows are kept, and every running minimum is the infimum of the terms met so far (+∞ if none). -/
structure Inv (x : Mat) (g : ℕ) (s : St) : Prop where
  xm2 : ∀ r k, blk r ≤ g → s.xm2 r k = MTWO * x r k
  sqr : ∀ r, blk r ≤ g → s.sqr r = sqn x r
  sqc : ∀ r, blk r ≤ g → s.sqc r = sqn x r
  racc : ∀ r l, s.racc r l = (rowSetL g r l).inf (T1 x r)
  cacc : ∀ c, s.cacc c = (colSetG g c).inf (fun r' => T2 x r' c)

end Cert.KoLeo

end
-- ==== Proof.PayDefs.lean ====
import proofs.«108340_g74552042324289_cont_9to1_m_1244_4_alg».proof.Proof.Gen.KernelIdeal.Skeleton
import proofs.«108340_g74552042324289_cont_9to1_m_1244_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.KoLeo Idealize.ShloMosaic Idealize.ShloMosaic.ValueIdx
open scoped BigOperators

abbrev l4 (l : Fin 128) (q : Fin 4) : Fin 512 := ⟨l.val + 128 * q.val, by omega⟩
abbrev l2 (l : Fin 128) (q : Fin 2) : Fin 256 := ⟨l.val + 128 * q.val, by omega⟩
abbrev lo (p : Fin 256) : Fin 512 := ⟨p.val, by omega⟩
abbrev up (p : Fin 256) : Fin 512 := ⟨256 + p.val, by omega⟩

/-- Row p of a against row j of b, and a row's sum of squares. -/
def dot {A B : ℕ} (a : (⟨2, ![A, 1024]⟩ : Shape).Idx → EReal) (b : (⟨2, ![B, 1024]⟩ : Shape).Idx → EReal) (p : Fin A) (j : Fin B) : EReal :=
  ∑ k : Fin 1024, a (ix2 p k) * b (ix2 j k)
def rowsq {A : ℕ} (a : (⟨2, ![A, 1024]⟩ : Shape).Idx → EReal) (p : Fin A) : EReal := ∑ k : Fin 1024, a (ix2 p k) * a (ix2 p k)

/-- One tile against an earlier block: lane l of row p takes the minimum with the lane's four columns; column j with all 512 rows. -/
def tileRow (xb xm : (⟨2, ![512, 1024]⟩ : Shape).Idx → EReal) (sq : (⟨2, ![1, 512]⟩ : Shape).Idx → EReal)
    (ra : (⟨2, ![512, 128]⟩ : Shape).Idx → EReal) (p : Fin 512) (l : Fin 128) : EReal :=
  min (ra (ix2 p l))
    (min (min (sq (ix2 0 (l4 l 0)) + dot xb xm p (l4 l 0)) (sq (ix2 0 (l4 l 1)) + dot xb xm p (l4 l 1)))
         (min (sq (ix2 0 (l4 l 2)) + dot xb xm p (l4 l 2)) (sq (ix2 0 (l4 l 3)) + dot xb xm p (l4 l 3))))

def tileCol (xb xm : (⟨2, ![512, 1024]⟩ : Shape).Idx → EReal) (sqv : (⟨2, ![512, 1]⟩ : Shape).Idx → EReal)
    (ca : (⟨2, ![1, 512]⟩ : Shape).Idx → EReal) (j : Fin 512) : EReal :=
  min (ca (ix2 0 j)) ((Finset.univ : Finset (Fin 512)).fold min INF (fun p => sqv (ix2 p 0) + dot xb xm p j))

end Cert.KernelIdeal.Pay

end
-- ==== Proof.Lits.lean ====
import proofs.«108340_g74552042324289_cont_9to1_m_1244_4_alg».proof.Proof.Spec

noncomputable section

namespace Cert.KoLeo

open Idealize.ShloMosaic

/-- The float literals as the extended reals they denote. -/
theorem ZERO_eq : ZERO = 0 := Ideal.ofBits_zero_f32
theorem INF_eq : INF = ⊤ := by simp [Ideal.ofBits, Ideal.ieee]
theorem TWO_eq : TWO = ((2 : ℝ) : EReal) := by
  simp [Ideal.ofBits, Ideal.ieee]
  rw [← EReal.coe_mul, EReal.coe_eq_coe_iff]
  norm_num [zpow_neg, zpow_natCast]
theorem MTWO_eq : MTWO = ((-2 : ℝ) : EReal) := by
  simp [Ideal.ofBits, Ideal.ieee]
  rw [← EReal.coe_mul, EReal.coe_eq_coe_iff]
  norm_num [zpow_neg, zpow_natCast]
theorem N4096_eq : N4096 = ((4096 : ℝ) : EReal) := by
  simp [Ideal.ofBits, Ideal.ieee]
  rw [← EReal.coe_mul, EReal.coe_eq_coe_iff]
  norm_num [zpow_neg, zpow_natCast]
theorem MINV_eq : MINV = ((-(1 / 4096) : ℝ) : EReal) := by
  simp [Ideal.ofBits, Ideal.ieee]
  rw [← EReal.coe_mul, EReal.coe_eq_coe_iff]
  norm_num [zpow_neg, zpow_natCast]

end Cert.KoLeo

end
-- ==== Proof.PayA.lean ====
import proofs.«108340_g74552042324289_cont_9to1_m_1244_4_alg».proof.Proof.Gen.KernelIdeal.Skeleton
import proofs.«108340_g74552042324289_cont_9to1_m_1244_4_alg».proof.Proof.Spec
import proofs.«108340_g74552042324289_cont_9to1_m_1244_4_alg».proof.Proof.PayDefs
import proofs.«108340_g74552042324289_cont_9to1_m_1244_4_alg».proof.Proof.Lits
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.KoLeo Idealize.ShloMosaic Idealize.ShloMosaic.ValueIdx
open scoped BigOperators

namespace A

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowsum_apply (y : FVec Ideal S512x1024 .f32) (p : Fin 512) :
    multiReduction .add [1] S512 y 0x00000000#32 reduces_S512x1024_S512 (.inl rfl) rfl (ix1 p) = ∑ k : Fin 1024, y (ix2 p k) := by
  refine (Ideal.multiReduction_add_single y _ reduces_S512x1024_S512 _ _ (ix1 p)).trans ?_
  refine Finset.sum_congr rfl fun k _ => ?_
  exact congrArg y (funext fun a => Fin.ext (by match a with | ⟨0, _⟩ => rfl | ⟨1, _⟩ => rfl))

end A

open A

theorem pay5_eq (x0 : Vec Ideal S512x1024 .f32) : k0_pay5 (F := Ideal) x0 = x0 := rfl
theorem pay6_apply (x0 : Vec Ideal S512x1024 .f32) (p : Fin 512) (k : Fin 1024) : k0_pay6 (F := Ideal) x0 (ix2 p k) = MTWO * x0 (ix2 p k) := rfl
theorem pay7_apply (x0 : Vec Ideal S512x1024 .f32) (p : Fin 512) (k : Fin 1024) : k0_pay7 (F := Ideal) x0 (ix2 p k) = MTWO * x0 (ix2 p k) := by
  unfold k0_pay7
  rw [shapeCast_self]
  exact pay6_apply x0 p k
theorem pay8_apply (x0 : Vec Ideal S512x1024 .f32) (p : Fin 512) : k0_pay8 (F := Ideal) x0 (ix2 p 0) = rowsq x0 p := by
  unfold k0_pay8
  refine (shapeCast_a_a1_apply _ shapeCasts_S512_S512x1 p 0).trans ?_
  exact rowsum_apply _ p
theorem pay9_apply (x0 : Vec Ideal S512x1024 .f32) (j : Fin 512) : k0_pay9 (F := Ideal) x0 (ix2 0 j) = rowsq x0 j := by
  unfold k0_pay9
  refine (shapeCast_a1_1a_apply _ shapeCasts_S512x1_S1x512 0 j).trans ?_
  exact pay8_apply x0 j
theorem pay10_apply (x0 : Vec Ideal S512x1024 .f32) (p : Fin 512) : k0_pay10 (F := Ideal) x0 (ix2 p 0) = rowsq x0 p := by
  unfold k0_pay10
  rw [shapeCast_self]
  exact pay8_apply x0 p
theorem pay11_apply (x0 : Vec Ideal S512x1024 .f32) (j : Fin 512) : k0_pay11 (F := Ideal) x0 (ix2 0 j) = rowsq x0 j := by
  unfold k0_pay11
  rw [shapeCast_self]
  exact pay9_apply x0 j

theorem pay3_apply (y : S4096x128.Idx) : k0_pay3 (F := Ideal) y = INF := by
  unfold k0_pay3
  rw [shapeCast_self]
  rfl
theorem pay4_apply (y : S1x4096.Idx) : k0_pay4 (F := Ideal) y = INF := by
  unfold k0_pay4
  rw [shapeCast_self]
  rfl
theorem pay1_eq (v : Vec Ideal S256x128 .f32) : k0_pay1 (F := Ideal) v = v := by
  unfold k0_pay1
  exact shapeCast_self v _

namespace A

theorem lhs_D512_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_D512_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_D512_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_D512_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- A matrix product into a zero accumulator is, entry by entry, the sum over the contracted axis. -/
theorem matmul512_apply (a b : FVec Ideal S512x1024 .bf16) (p j : Fin 512) :
    matmul dot_S512x1024_S512x1024_S512x512_1_1_0_0_n_n none a b (constant (F := Ideal) S512x512 .f32 0x00000000#32) (ix2 p j) = dot a b p j := by
  simp only [matmul]
  rw [Ideal.matmul_constant_zero_apply, ← Equiv.sum_comp (ValueIdx.contrEquiv1 dot_S512x1024_S512x1024_S512x512_1_1_0_0_n_n 1024 rfl rfl).symm]
  unfold dot
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p j) ((ValueIdx.contrEquiv1 dot_S512x1024_S512x1024_S512x512_1_1_0_0_n_n 1024 rfl rfl).symm k) = ix2 p k := funext fun ax => Fin.ext (by
    match ax with
    | ⟨0, _⟩ => exact lhs_D512_0 _ _
    | ⟨1, _⟩ => exact (lhs_D512_1 _ _).trans hk)
  have er : dot_S512x1024_S512x1024_S512x512_1_1_0_0_n_n.rhsIdx (ix2 p j) ((ValueIdx.contrEquiv1 dot_S512x1024_S512x1024_S512x512_1_1_0_0_n_n 1024 rfl rfl).symm k) = ix2 j k := funext fun ax => Fin.ext (by
    match ax with
    | ⟨0, _⟩ => exact rhs_D512_0 _ _
    | ⟨1, _⟩ => exact (rhs_D512_1 _ _).trans hk)
  rw [el, er]

end A

namespace A

theorem rowside_apply (M : FVec Ideal S512x512 .f32) (sq : FVec Ideal S1x512 .f32) (ra : FVec Ideal S512x128 .f32) (p : Fin 512) (l : Fin 128) :
    shapeCast S512x128
        (minimumf ra
          (minimumf
            (minimumf
              (extractStridedSlice S512x128 ![0, 0] (addf (broadcastTo S512x512 sq broadcasts_S1x512_S512x512) M) slices_S512x512_o0_0_S512x128)
              (extractStridedSlice S512x128 ![0, 128] (addf (broadcastTo S512x512 sq broadcasts_S1x512_S512x512) M) slices_S512x512_o0_128_S512x128))
            (minimumf
              (extractStridedSlice S512x128 ![0, 256] (addf (broadcastTo S512x512 sq broadcasts_S1x512_S512x512) M) slices_S512x512_o0_256_S512x128)
              (extractStridedSlice S512x128 ![0, 384] (addf (broadcastTo S512x512 sq broadcasts_S1x512_S512x512) M) slices_S512x512_o0_384_S512x128))))
        shapeCasts_S512x128_S512x128 (ix2 p l)
      = min (ra (ix2 p l))
          (min (min (sq (ix2 0 (l4 l 0)) + M (ix2 p (l4 l 0))) (sq (ix2 0 (l4 l 1)) + M (ix2 p (l4 l 1))))
               (min (sq (ix2 0 (l4 l 2)) + M (ix2 p (l4 l 2))) (sq (ix2 0 (l4 l 3)) + M (ix2 p (l4 l 3))))) := by
  have e (o : ℕ) (q : Fin 4) (h : S512x512.Slices ![0, o] S512x128) (ho : o = 128 * q.val) :
      extractStridedSlice S512x128 ![0, o] (addf (broadcastTo S512x512 sq broadcasts_S1x512_S512x512) M) h (ix2 p l)
        = sq (ix2 0 (l4 l q)) + M (ix2 p (l4 l q)) := by
    refine (slice2_axis1_apply o _ h p l (l4 l q) (by show l.val + 128 * q.val = o + l.val; omega)).trans ?_
    exact congrArg (· + M (ix2 p (l4 l q))) (broadcastTo_1b_ab_apply sq broadcasts_S1x512_S512x512 p (l4 l q))
  rw [shapeCast_self]
  exact congrArg₂ min rfl (congrArg₂ min (congrArg₂ min (e 0 0 _ rfl) (e 128 1 _ rfl)) (congrArg₂ min (e 256 2 _ rfl) (e 384 3 _ rfl)))

theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem colmin_apply (y : FVec Ideal S512x512 .f32) (j : Fin 512) :
    multiReduction .minimumf [0] S512 y 0x7F800000#32 reduces_S512x512_S512 (.inl rfl) rfl (ix1 j)
      = (Finset.univ : Finset (Fin 512)).fold min INF (fun p => y (ix2 p j)) := by
  refine (multiReduction_minimumf_single y _ reduces_S512x512_S512 _ _ (ix1 j)).trans ?_
  exact congrArg (fun f => (Finset.univ : Finset (Fin 512)).fold min INF f) (funext fun p =>
    congrArg y (funext fun a => Fin.ext (by match a with | ⟨0, _⟩ => rfl | ⟨1, _⟩ => rfl)))

theorem colside_apply (M : FVec Ideal S512x512 .f32) (sqv : FVec Ideal S512x1 .f32) (ca : FVec Ideal S1x512 .f32) (j : Fin 512) :
    shapeCast S1x512
        (minimumf ca
          (shapeCast S1x512
            (multiReduction .minimumf [0] S512 (addf (broadcastTo S512x512 sqv broadcasts_S512x1_S512x512) M) 0x7F800000#32 reduces_S512x512_S512 (.inl rfl) rfl)
            shapeCasts_S512_S1x512))
        shapeCasts_S1x512_S1x512 (ix2 0 j)
      = min (ca (ix2 0 j)) ((Finset.univ : Finset (Fin 512)).fold min INF (fun p => sqv (ix2 p 0) + M (ix2 p j))) := by
  rw [shapeCast_self]
  refine congrArg (min (ca (ix2 0 j))) ?_
  refine (shapeCast_a_1a_apply _ shapeCasts_S512_S1x512 0 j).trans ?_
  refine (colmin_apply _ j).trans ?_
  exact congrArg (fun f => (Finset.univ : Finset (Fin 512)).fold min INF f) (funext fun p =>
    congrArg (· + M (ix2 p j)) (broadcastTo_a1_ab_apply sqv broadcasts_S512x1_S512x512 p j))

end A

theorem pay12_apply (x0 : Vec Ideal S512x1024 .f32) (xm : Vec Ideal S512x1024 .bf16) (p j : Fin 512) :
    k0_pay12 (F := Ideal) x0 xm (ix2 p j) = dot x0 xm p j := by
  unfold k0_pay12
  rw [pay5_eq]
  exact A.matmul512_apply x0 xm p j
theorem pay15_apply (x0 : Vec Ideal S512x1024 .f32) (xm : Vec Ideal S512x1024 .bf16) (p j : Fin 512) :
    k0_pay15 (F := Ideal) x0 xm (ix2 p j) = dot x0 xm p j := by
  unfold k0_pay15
  rw [pay5_eq]
  exact A.matmul512_apply x0 xm p j
theorem pay18_apply (x0 : Vec Ideal S512x1024 .f32) (xm : Vec Ideal S512x1024 .bf16) (p j : Fin 512) :
    k0_pay18 (F := Ideal) x0 xm (ix2 p j) = dot x0 xm p j := by
  unfold k0_pay18
  rw [pay5_eq]
  exact A.matmul512_apply x0 xm p j
theorem pay21_apply (xb : Vec Ideal S512x1024 .bf16) (xm : Vec Ideal S512x1024 .bf16) (p j : Fin 512) :
    k0_pay21 (F := Ideal) xb xm (ix2 p j) = dot xb xm p j := by
  unfold k0_pay21
  exact A.matmul512_apply xb xm p j
theorem pay24_apply (xb : Vec Ideal S512x1024 .bf16) (xm : Vec Ideal S512x1024 .bf16) (p j : Fin 512) :
    k0_pay24 (F := Ideal) xb xm (ix2 p j) = dot xb xm p j := by
  unfold k0_pay24
  exact A.matmul512_apply xb xm p j
theorem pay27_apply (xb : Vec Ideal S512x1024 .bf16) (xm : Vec Ideal S512x1024 .bf16) (p j : Fin 512) :
    k0_pay27 (F := Ideal) xb xm (ix2 p j) = dot xb xm p j := by
  unfold k0_pay27
  exact A.matmul512_apply xb xm p j
theorem pay30_apply (xb : Vec Ideal S512x1024 .bf16) (xm : Vec Ideal S512x1024 .bf16) (p j : Fin 512) :
    k0_pay30 (F := Ideal) xb xm (ix2 p j) = dot xb xm p j := by
  unfold k0_pay30
  exact A.matmul512_apply xb xm p j

theorem pay13_apply (x0 : Vec Ideal S512x1024 .f32) (xm : Vec Ideal S512x1024 .bf16) (sq : Vec Ideal S1x512 .f32) (ra : Vec Ideal S512x128 .f32) (p : Fin 512) (l : Fin 128) :
    k0_pay13 (F := Ideal) x0 xm sq ra (ix2 p l) = tileRow x0 xm sq ra p l := by
  unfold k0_pay13
  refine (A.rowside_apply (k0_pay12 (F := Ideal) x0 xm) sq ra p l).trans ?_
  unfold tileRow
  rw [pay12_apply, pay12_apply, pay12_apply, pay12_apply]
theorem pay16_apply (x0 : Vec Ideal S512x1024 .f32) (xm : Vec Ideal S512x1024 .bf16) (sq : Vec Ideal S1x512 .f32) (ra : Vec Ideal S512x128 .f32) (p : Fin 512) (l : Fin 128) :
    k0_pay16 (F := Ideal) x0 xm sq ra (ix2 p l) = tileRow x0 xm sq ra p l := by
  unfold k0_pay16
  refine (A.rowside_apply (k0_pay15 (F := Ideal) x0 xm) sq ra p l).trans ?_
  unfold tileRow
  rw [pay15_apply, pay15_apply, pay15_apply, pay15_apply]
theorem pay19_apply (x0 : Vec Ideal S512x1024 .f32) (xm : Vec Ideal S512x1024 .bf16) (sq : Vec Ideal S1x512 .f32) (ra : Vec Ideal S512x128 .f32) (p : Fin 512) (l : Fin 128) :
    k0_pay19 (F := Ideal) x0 xm sq ra (ix2 p l) = tileRow x0 xm sq ra p l := by
  unfold k0_pay19
  refine (A.rowside_apply (k0_pay18 (F := Ideal) x0 xm) sq ra p l).trans ?_
  unfold tileRow
  rw [pay18_apply, pay18_apply, pay18_apply, pay18_apply]
theorem pay22_apply (xb : Vec Ideal S512x1024 .bf16) (xm : Vec Ideal S512x1024 .bf16) (sq : Vec Ideal S1x512 .f32) (ra : Vec Ideal S512x128 .f32) (p : Fin 512) (l : Fin 128) :
    k0_pay22 (F := Ideal) xb xm sq ra (ix2 p l) = tileRow xb xm sq ra p l := by
  unfold k0_pay22
  refine (A.rowside_apply (k0_pay21 (F := Ideal) xb xm) sq ra p l).trans ?_
  unfold tileRow
  rw [pay21_apply, pay21_apply, pay21_apply, pay21_apply]
theorem pay25_apply (xb : Vec Ideal S512x1024 .bf16) (xm : Vec Ideal S512x1024 .bf16) (sq : Vec Ideal S1x512 .f32) (ra : Vec Ideal S512x128 .f32) (p : Fin 512) (l : Fin 128) :
    k0_pay25 (F := Ideal) xb xm sq ra (ix2 p l) = tileRow xb xm sq ra p l := by
  unfold k0_pay25
  refine (A.rowside_apply (k0_pay24 (F := Ideal) xb xm) sq ra p l).trans ?_
  unfold tileRow
  rw [pay24_apply, pay24_apply, pay24_apply, pay24_apply]
theorem pay28_apply (xb : Vec Ideal S512x1024 .bf16) (xm : Vec Ideal S512x1024 .bf16) (sq : Vec Ideal S1x512 .f32) (ra : Vec Ideal S512x128 .f32) (p : Fin 512) (l : Fin 128) :
    k0_pay28 (F := Ideal) xb xm sq ra (ix2 p l) = tileRow xb xm sq ra p l := by
  unfold k0_pay28
  refine (A.rowside_apply (k0_pay27 (F := Ideal) xb xm) sq ra p l).trans ?_
  unfold tileRow
  rw [pay27_apply, pay27_apply, pay27_apply, pay27_apply]
theorem pay31_apply (xb : Vec Ideal S512x1024 .bf16) (xm : Vec Ideal S512x1024 .bf16) (sq : Vec Ideal S1x512 .f32) (ra : Vec Ideal S512x128 .f32) (p : Fin 512) (l : Fin 128) :
    k0_pay31 (F := Ideal) xb xm sq ra (ix2 p l) = tileRow xb xm sq ra p l := by
  unfold k0_pay31
  refine (A.rowside_apply (k0_pay30 (F := Ideal) xb xm) sq ra p l).trans ?_
  unfold tileRow
  rw [pay30_apply, pay30_apply, pay30_apply, pay30_apply]

theorem pay14_apply (x0 : Vec Ideal S512x1024 .f32) (xm : Vec Ideal S512x1024 .bf16) (ca : Vec Ideal S1x512 .f32) (j : Fin 512) :
    k0_pay14 (F := Ideal) x0 xm ca (ix2 0 j) = tileCol x0 xm (k0_pay8 (F := Ideal) x0) ca j := by
  unfold k0_pay14
  refine (A.colside_apply (k0_pay12 (F := Ideal) x0 xm) (k0_pay8 (F := Ideal) x0) ca j).trans ?_
  unfold tileCol
  simp only [pay12_apply]
theorem pay17_apply (x0 : Vec Ideal S512x1024 .f32) (xm : Vec Ideal S512x1024 .bf16) (ca : Vec Ideal S1x512 .f32) (j : Fin 512) :
    k0_pay17 (F := Ideal) x0 xm ca (ix2 0 j) = tileCol x0 xm (k0_pay8 (F := Ideal) x0) ca j := by
  unfold k0_pay17
  refine (A.colside_apply (k0_pay15 (F := Ideal) x0 xm) (k0_pay8 (F := Ideal) x0) ca j).trans ?_
  unfold tileCol
  simp only [pay15_apply]
theorem pay20_apply (x0 : Vec Ideal S512x1024 .f32) (xm : Vec Ideal S512x1024 .bf16) (ca : Vec Ideal S1x512 .f32) (j : Fin 512) :
    k0_pay20 (F := Ideal) x0 xm ca (ix2 0 j) = tileCol x0 xm (k0_pay8 (F := Ideal) x0) ca j := by
  unfold k0_pay20
  refine (A.colside_apply (k0_pay18 (F := Ideal) x0 xm) (k0_pay8 (F := Ideal) x0) ca j).trans ?_
  unfold tileCol
  simp only [pay18_apply]
theorem pay23_apply (xb : Vec Ideal S512x1024 .bf16) (sqv : Vec Ideal S512x1 .f32) (xm : Vec Ideal S512x1024 .bf16) (ca : Vec Ideal S1x512 .f32) (j : Fin 512) :
    k0_pay23 (F := Ideal) xb sqv xm ca (ix2 0 j) = tileCol xb xm sqv ca j := by
  unfold k0_pay23
  refine (A.colside_apply (k0_pay21 (F := Ideal) xb xm) sqv ca j).trans ?_
  unfold tileCol
  simp only [pay21_apply]
theorem pay26_apply (xb : Vec Ideal S512x1024 .bf16) (sqv : Vec Ideal S512x1 .f32) (xm : Vec Ideal S512x1024 .bf16) (ca : Vec Ideal S1x512 .f32) (j : Fin 512) :
    k0_pay26 (F := Ideal) xb sqv xm ca (ix2 0 j) = tileCol xb xm sqv ca j := by
  unfold k0_pay26
  refine (A.colside_apply (k0_pay24 (F := Ideal) xb xm) sqv ca j).trans ?_
  unfold tileCol
  simp only [pay24_apply]
theorem pay29_apply (xb : Vec Ideal S512x1024 .bf16) (sqv : Vec Ideal S512x1 .f32) (xm : Vec Ideal S512x1024 .bf16) (ca : Vec Ideal S1x512 .f32) (j : Fin 512) :
    k0_pay29 (F := Ideal) xb sqv xm ca (ix2 0 j) = tileCol xb xm sqv ca j := by
  unfold k0_pay29
  refine (A.colside_apply (k0_pay27 (F := Ideal) xb xm) sqv ca j).trans ?_
  unfold tileCol
  simp only [pay27_apply]
theorem pay32_apply (xb : Vec Ideal S512x1024 .bf16) (sqv : Vec Ideal S512x1 .f32) (xm : Vec Ideal S512x1024 .bf16) (ca : Vec Ideal S1x512 .f32) (j : Fin 512) :
    k0_pay32 (F := Ideal) xb sqv xm ca (ix2 0 j) = tileCol xb xm sqv ca j := by
  unfold k0_pay32
  refine (A.colside_apply (k0_pay30 (F := Ideal) xb xm) sqv ca j).trans ?_
  unfold tileCol
  simp only [pay30_apply]

end Cert.KernelIdeal.Pay

end
-- ==== Proof.PayB.lean ====
import proofs.«108340_g74552042324289_cont_9to1_m_1244_4_alg».proof.Proof.Gen.KernelIdeal.Skeleton
import proofs.«108340_g74552042324289_cont_9to1_m_1244_4_alg».proof.Proof.Spec
import proofs.«108340_g74552042324289_cont_9to1_m_1244_4_alg».proof.Proof.PayDefs
import proofs.«108340_g74552042324289_cont_9to1_m_1244_4_alg».proof.Proof.Lits
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.KoLeo Idealize.ShloMosaic Idealize.ShloMosaic.ValueIdx
open scoped BigOperators

namespace B

theorem lhs_d256_0 (i : S256x256.Idx) (q : dot_S256x1024_S256x1024_S256x256_1_1_0_0_n_n.contr.Idx) :
    (dot_S256x1024_S256x1024_S256x256_1_1_0_0_n_n.lhsIdx i q 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem lhs_d256_1 (i : S256x256.Idx) (q : dot_S256x1024_S256x1024_S256x256_1_1_0_0_n_n.contr.Idx) :
    (dot_S256x1024_S256x1024_S256x256_1_1_0_0_n_n.lhsIdx i q 1).val = (q ⟨0, by decide⟩).val :=
  dot_S256x1024_S256x1024_S256x256_1_1_0_0_n_n.lhsIdx_val_of_single rfl i q
theorem rhs_d256_0 (i : S256x256.Idx) (q : dot_S256x1024_S256x1024_S256x256_1_1_0_0_n_n.contr.Idx) :
    (dot_S256x1024_S256x1024_S256x256_1_1_0_0_n_n.rhsIdx i q 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem rhs_d256_1 (i : S256x256.Idx) (q : dot_S256x1024_S256x1024_S256x256_1_1_0_0_n_n.contr.Idx) :
    (dot_S256x1024_S256x1024_S256x256_1_1_0_0_n_n.rhsIdx i q 1).val = (q ⟨0, by decide⟩).val :=
  dot_S256x1024_S256x1024_S256x256_1_1_0_0_n_n.rhsIdx_val_of_single rfl i q

theorem matmul256_apply (a b : FVec Ideal S256x1024 .bf16) (p cc : Fin 256) :
    matmul dot_S256x1024_S256x1024_S256x256_1_1_0_0_n_n none a b (constant S256x256 .f32 0x00000000#32) (ix2 p cc)
      = ∑ k : Fin 1024, a (ix2 p k) * b (ix2 cc k) := by
  simp only [matmul]
  rw [Ideal.matmul_constant_zero_apply, ← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 p cc) ((contrEquiv1 dot_S256x1024_S256x1024_S256x256_1_1_0_0_n_n 1024 rfl rfl).symm k) = ix2 p k := funext fun a => Fin.ext (by
    match a with
    | ⟨0, _⟩ => exact lhs_d256_0 _ _
    | ⟨1, _⟩ => exact (lhs_d256_1 _ _).trans hk)
  have er : dot_S256x1024_S256x1024_S256x256_1_1_0_0_n_n.rhsIdx (ix2 p cc) ((contrEquiv1 dot_S256x1024_S256x1024_S256x256_1_1_0_0_n_n 1024 rfl rfl).symm k) = ix2 cc k := funext fun a => Fin.ext (by
    match a with
    | ⟨0, _⟩ => exact rhs_d256_0 _ _
    | ⟨1, _⟩ => exact (rhs_d256_1 _ _).trans hk)
  rw [el, er]

/-- The diagonal mask of a subtile is set exactly where row and column numbers agree. -/
theorem diag_bit (p cc : Fin 256) :
    IntOp.cmpi .eq (BitVec.ofNat 32 p.val) (BitVec.ofNat 32 cc.val) = if p.val = cc.val then 1#1 else 0#1 := by
  unfold IntOp.cmpi
  by_cases h : p.val = cc.val
  · simp [h]
  · have hne : BitVec.ofNat 32 p.val ≠ BitVec.ofNat 32 cc.val := by
      intro e
      have e' := congrArg BitVec.toNat e
      simp only [BitVec.toNat_ofNat] at e'
      have := p.isLt
      have := cc.isLt
      omega
    have hb : (BitVec.ofNat 32 p.val == BitVec.ofNat 32 cc.val) = false := beq_eq_false_iff_ne.mpr hne
    simp [h, hb]

theorem masked_apply (t : FVec Ideal S256x256 .f32) (p cc : Fin 256) :
    select (cmpi .eq (iota .tc S256x256 32 [0] iota_S256x256_d0_w32) (iota .tc S256x256 32 [1] iota_S256x256_d1_w32))
      (broadcast S256x256 (Scalar.ofBits (F := Ideal) .f32 0x7F800000#32)) t (ix2 p cc)
      = if p.val = cc.val then INF else t (ix2 p cc) := by
  rw [select_apply]
  show Scalar.select (IntOp.cmpi .eq (iota .tc S256x256 32 [0] iota_S256x256_d0_w32 (ix2 p cc)) (iota .tc S256x256 32 [1] iota_S256x256_d1_w32 (ix2 p cc))) INF (t (ix2 p cc)) = _
  rw [iota_single_apply, iota_single_apply]
  show Scalar.select (IntOp.cmpi .eq (BitVec.ofNat 32 p.val) (BitVec.ofNat 32 cc.val)) INF (t (ix2 p cc)) = _
  rw [diag_bit]
  by_cases h : p.val = cc.val
  · rw [if_pos h, if_pos h, select_one]
  · rw [if_neg h, if_neg h, select_zero]

theorem halfdot_apply (xb xm : FVec Ideal S512x1024 .bf16) (ro co : ℕ) (hr : S512x1024.Slices ![ro, 0] S256x1024)
    (hc : S512x1024.Slices ![co, 0] S256x1024) (p cc : Fin 256) (P C : Fin 512) (hP : P.val = ro + p.val) (hC : C.val = co + cc.val) :
    matmul dot_S256x1024_S256x1024_S256x256_1_1_0_0_n_n none (extractStridedSlice S256x1024 ![ro, 0] xb hr)
        (extractStridedSlice S256x1024 ![co, 0] xm hc) (constant S256x256 .f32 0x00000000#32) (ix2 p cc)
      = dot xb xm P C := by
  refine (matmul256_apply _ _ p cc).trans ?_
  unfold dot
  refine Finset.sum_congr rfl fun k _ => ?_
  rw [slice2_axis0_apply ro xb _ p k P hP, slice2_axis0_apply co xm _ cc k C hC]

theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem minRows256_apply (x : FVec Ideal S256x256 .f32) (cc : Fin 256) :
    multiReduction .minimumf [0] S256 x 0x7F800000#32 reduces_S256x256_S256 (.inl rfl) rfl (ix1 cc)
      = (Finset.univ : Finset (Fin 256)).fold min INF (fun p => x (ix2 p cc)) := by
  refine (multiReduction_minimumf_single x _ reduces_S256x256_S256 _ _ (ix1 cc)).trans ?_
  have e : ∀ p : Fin 256, reduces_S256x256_S256.lift (ix1 cc) p = ix2 p cc := fun p => funext fun a => Fin.ext (by
    match a with
    | ⟨0, _⟩ => rfl
    | ⟨1, _⟩ => rfl)
  show Finset.fold min INF (fun p : Fin 256 => x (reduces_S256x256_S256.lift (ix1 cc) p)) Finset.univ = _
  simp only [e]

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sum_comp_shapeCast {s t : Shape} {α M : Type} [AddCommMonoid M] (G : α → M) (x : s.Idx → α) (h : s.ShapeCasts t) :
    ∑ j : t.Idx, G (shapeCast t x h j) = ∑ k : s.Idx, G (x k) :=
  Equiv.sum_comp (Shape.reshapeEquiv h) (fun k => G (x k))
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_1a_a1_apply {α : Type} {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

theorem minLanes4096_apply (x : FVec Ideal S4096x128 .f32) (r : Fin 4096) :
    multiReduction .minimumf [1] S4096 x 0x7F800000#32 reduces_S4096x128_S4096 (.inl rfl) rfl (ix1 r)
      = (Finset.univ : Finset (Fin 128)).fold min INF (fun l => x (ix2 r l)) := by
  refine (multiReduction_minimumf_single x _ reduces_S4096x128_S4096 _ _ (ix1 r)).trans ?_
  have e : ∀ l : Fin 128, reduces_S4096x128_S4096.lift (ix1 r) l = ix2 r l := fun l => funext fun a => Fin.ext (by
    match a with
    | ⟨0, _⟩ => rfl
    | ⟨1, _⟩ => rfl)
  show Finset.fold min INF (fun l : Fin 128 => x (reduces_S4096x128_S4096.lift (ix1 r) l)) Finset.univ = _
  simp only [e]

theorem total_apply (v : FVec Ideal S1x32x128 .f32) :
    extractAt ![0, 0, 0] (shapeCast S1x1x1 (multiReduction .add [1, 2] S1 v 0x00000000#32 reduces_S1x32x128_S1 (.inl rfl) rfl) shapeCasts_S1_S1x1x1)
        inpos_S1x1x1_p0_0_0 = ∑ i : S1x32x128.Idx, v i := by
  unfold extractAt shapeCast
  exact Ideal.multiReduction_add_total v _ reduces_S1x32x128_S1 (by decide) _ _ _

theorem mulf_broadcast_apply {s : Shape} (a b : Ideal .f32) (i : s.Idx) :
    mulf (broadcast s a : FVec Ideal s .f32) (broadcast s b) i = a * b := rfl

theorem log_sqrt_add_apply {s : Shape} (v : FVec Ideal s .f32) (e : Ideal .f32) (k : s.Idx) :
    Idealize.ShloMosaic.log (addf (Idealize.ShloMosaic.sqrt v) (broadcast s e)) k = Ideal.log (Ideal.sqrt (v k) + e) := rfl

theorem clamp_min_apply {s : Shape} (a b c : FVec Ideal s .f32) (z : Ideal .f32) (k : s.Idx) :
    maximumf (minimumf (addf a b) c) (broadcast s z) k = max (min (a k + b k) (c k)) z := rfl

end B

open B

theorem pay33_apply (xb xm : Vec Ideal S512x1024 .bf16) (sqcv : Vec Ideal S1x512 .f32) (ra : Vec Ideal S256x128 .f32) (p : Fin 256) (l : Fin 128) :
    k0_pay33 (F := Ideal) xb xm sqcv ra (ix2 p l)
      = min (ra (ix2 p l))
          (min (if p.val = (l2 l 0).val then INF else sqcv (ix2 0 (lo (l2 l 0))) + dot xb xm (lo p) (lo (l2 l 0)))
               (if p.val = (l2 l 1).val then INF else sqcv (ix2 0 (lo (l2 l 1))) + dot xb xm (lo p) (lo (l2 l 1)))) := by
  unfold k0_pay33
  simp only [shapeCast_self, minimumf_apply]
  rw [slice2_axis1_apply 0 _ _ p l (l2 l 0) (by simp), slice2_axis1_apply 128 _ _ p l (l2 l 1) (by simp; omega)]
  rw [masked_apply, masked_apply]
  simp only [addf_apply]
  rw [halfdot_apply xb xm 0 0 _ _ p (l2 l 0) (lo p) (lo (l2 l 0)) (by simp) (by simp),
    halfdot_apply xb xm 0 0 _ _ p (l2 l 1) (lo p) (lo (l2 l 1)) (by simp) (by simp),
    broadcastTo_1b_ab_apply, broadcastTo_1b_ab_apply,
    slice2_axis1_apply 0 sqcv _ 0 (l2 l 0) (lo (l2 l 0)) (by simp), slice2_axis1_apply 0 sqcv _ 0 (l2 l 1) (lo (l2 l 1)) (by simp)]

theorem pay38_apply (xb xm : Vec Ideal S512x1024 .bf16) (sqcv : Vec Ideal S1x512 .f32) (ra : Vec Ideal S256x128 .f32) (p : Fin 256) (l : Fin 128) :
    k0_pay38 (F := Ideal) xb xm sqcv ra (ix2 p l)
      = min (ra (ix2 p l))
          (min (if p.val = (l2 l 0).val then INF else sqcv (ix2 0 (up (l2 l 0))) + dot xb xm (up p) (up (l2 l 0)))
               (if p.val = (l2 l 1).val then INF else sqcv (ix2 0 (up (l2 l 1))) + dot xb xm (up p) (up (l2 l 1)))) := by
  unfold k0_pay38
  simp only [minimumf_apply]
  rw [slice2_axis1_apply 0 _ _ p l (l2 l 0) (by simp), slice2_axis1_apply 128 _ _ p l (l2 l 1) (by simp; omega)]
  rw [masked_apply, masked_apply]
  simp only [addf_apply]
  rw [halfdot_apply xb xm 256 256 _ _ p (l2 l 0) (up p) (up (l2 l 0)) rfl rfl,
    halfdot_apply xb xm 256 256 _ _ p (l2 l 1) (up p) (up (l2 l 1)) rfl rfl,
    broadcastTo_1b_ab_apply, broadcastTo_1b_ab_apply,
    slice2_axis1_apply 256 sqcv _ 0 (l2 l 0) (up (l2 l 0)) rfl, slice2_axis1_apply 256 sqcv _ 0 (l2 l 1) (up (l2 l 1)) rfl]

theorem pay34_apply (xb xm : Vec Ideal S512x1024 .bf16) (p cc : Fin 256) :
    k0_pay34 (F := Ideal) xb xm (ix2 p cc) = dot xb xm (up p) (lo cc) := by
  unfold k0_pay34
  exact halfdot_apply xb xm 256 0 _ _ p cc (up p) (lo cc) rfl (by simp)
theorem pay35_apply (xb xm : Vec Ideal S512x1024 .bf16) (sqcv : Vec Ideal S1x512 .f32) (p cc : Fin 256) :
    k0_pay35 (F := Ideal) xb xm sqcv (ix2 p cc) = sqcv (ix2 0 (lo cc)) + dot xb xm (up p) (lo cc) := by
  unfold k0_pay35
  simp only [addf_apply]
  rw [pay34_apply, broadcastTo_1b_ab_apply, slice2_axis1_apply 0 sqcv _ 0 cc (lo cc) (by simp)]

theorem pay36_apply (t : Vec Ideal S256x256 .f32) (ra : Vec Ideal S256x128 .f32) (p : Fin 256) (l : Fin 128) :
    k0_pay36 (F := Ideal) t ra (ix2 p l) = min (ra (ix2 p l)) (min (t (ix2 p (l2 l 0))) (t (ix2 p (l2 l 1)))) := by
  unfold k0_pay36
  simp only [shapeCast_self, minimumf_apply]
  rw [slice2_axis1_apply 0 t _ p l (l2 l 0) (by simp), slice2_axis1_apply 128 t _ p l (l2 l 1) (by simp; omega)]

theorem pay37_apply (sqv : Vec Ideal S512x1 .f32) (gp : Vec Ideal S256x256 .f32) (ca : Vec Ideal S1x256 .f32) (cc : Fin 256) :
    k0_pay37 (F := Ideal) sqv gp ca (ix2 0 cc)
      = min (ca (ix2 0 cc)) ((Finset.univ : Finset (Fin 256)).fold min INF (fun p => sqv (ix2 (up p) 0) + gp (ix2 p cc))) := by
  unfold k0_pay37
  simp only [shapeCast_self, minimumf_apply]
  rw [shapeCast_a_1a_apply, minRows256_apply]
  simp only [addf_apply]
  refine congrArg (min (ca (ix2 0 cc))) (congrArg (fun f => Finset.fold min INF f Finset.univ) (funext fun p => ?_))
  rw [broadcastTo_a1_ab_apply, slice2_axis0_apply 256 sqv _ p 0 (up p) rfl]

theorem pay2_apply (ra : Vec Ideal S4096x128 .f32) (sr : Vec Ideal S4096x1 .f32) (ca sc : Vec Ideal S1x4096 .f32) (y : S1x1.Idx) :
    k0_pay2 (F := Ideal) ra sr ca sc y
      = (∑ r : Fin 4096, Ideal.log (Ideal.sqrt (max (min ((Finset.univ : Finset (Fin 128)).fold min INF (fun l => ra (ix2 r l)) + sr (ix2 r 0))
            (ca (ix2 0 r) + sc (ix2 0 r))) ZERO) + EPS)) * MINV := by
  unfold k0_pay2
  refine (mulf_broadcast_apply _ _ y).trans ?_
  refine congrArg (· * MINV) ?_
  refine (total_apply _).trans ?_
  refine (sum_shapeCast _ _).trans ?_
  refine (Finset.sum_congr rfl fun k _ => log_sqrt_add_apply _ _ k).trans ?_
  refine (sum_comp_shapeCast (fun z => Ideal.log (Ideal.sqrt z + EPS)) _ _).trans ?_
  rw [sum_idx2]
  refine Finset.sum_congr rfl fun r _ => ?_
  rw [Fin.sum_univ_one]
  refine congrArg (fun z => Ideal.log (Ideal.sqrt z + EPS)) ?_
  refine (clamp_min_apply _ _ _ _ _).trans ?_
  rw [shapeCast_a_a1_apply, shapeCast_1a_a1_apply, minLanes4096_apply]
  rfl

end Cert.KernelIdeal.Pay

end
-- ==== Proof.Pay.lean ====
import proofs.«108340_g74552042324289_cont_9to1_m_1244_4_alg».proof.Proof.PayA
import proofs.«108340_g74552042324289_cont_9to1_m_1244_4_alg».proof.Proof.PayB
import proofs.«108340_g74552042324289_cont_9to1_m_1244_4_alg».proof.Proof.Runs

namespace Cert.KernelIdeal.Gen

def stOf {P} (R : Found (F := Idealize.ShloMosaic.Ideal) P) : Cert.KoLeo.St := Cert.KoLeo.St.ofVecs R.n0 R.n1 R.n2 R.n3 R.n4

end Cert.KernelIdeal.Gen
-- ==== Proof.StepLibG.lean ====
import proofs.«108340_g74552042324289_cont_9to1_m_1244_4_alg».proof.Proof.Spec
import proofs.«108340_g74552042324289_cont_9to1_m_1244_4_alg».proof.Proof.PayDefs
import proofs.«108340_g74552042324289_cont_9to1_m_1244_4_alg».proof.Proof.Lits
import Idealize.ShloMosaic.Lib.ValueIdx
import Idealize.ShloMosaic.Lib.WritesUnit
import Idealize.ShloMosaic.Lib.Pipeline.FrameBody
import Mathlib.Data.Finset.Lattice.Fold

set_option maxRecDepth 16384

noncomputable section

namespace Cert.KernelIdeal.StepLib

open Cert.KernelIdeal Cert.KernelIdeal.Pay Cert.KoLeo Idealize.ShloMosaic Idealize.ShloMosaic.ValueIdx
open scoped BigOperators

abbrev row (g : ℕ) (hg : g < 8) (q : Fin 512) : Fin 4096 := ⟨512 * g + q.val, by omega⟩

/-- The columns of lane l in the blocks before g, in block i, and in half h of block g. -/
def lanesBelow (g : ℕ) (l : Fin 128) : Finset (Fin 4096) := Finset.univ.filter fun c => blk c < g ∧ c.val % 128 = l.val
def laneBlk (i : ℕ) (l : Fin 128) : Finset (Fin 4096) := Finset.univ.filter fun c => blk c = i ∧ c.val % 128 = l.val
def laneHalf (g h : ℕ) (l : Fin 128) : Finset (Fin 4096) :=
  Finset.univ.filter fun c => blk c = g ∧ half c = h ∧ c.val % 128 = l.val

theorem lanesBelow_zero (l : Fin 128) : lanesBelow 0 l = ∅ := by
  ext c; simp only [lanesBelow, Finset.mem_filter, Finset.mem_univ, true_and, Finset.notMem_empty, iff_false]; omega

theorem lanesBelow_succ (i : ℕ) (l : Fin 128) : lanesBelow (i + 1) l = lanesBelow i l ∪ laneBlk i l := by
  ext c; simp only [lanesBelow, laneBlk, Finset.mem_filter, Finset.mem_univ, true_and, Finset.mem_union]; omega

theorem laneBlk_eq (i : ℕ) (hi : i < 8) (l : Fin 128) :
    laneBlk i l = {row i hi (l4 l 0), row i hi (l4 l 1), row i hi (l4 l 2), row i hi (l4 l 3)} := by
  ext c
  have h2 : ((2 : Fin 4) : ℕ) = 2 := rfl
  have h3 : ((3 : Fin 4) : ℕ) = 3 := rfl
  simp only [laneBlk, Finset.mem_filter, Finset.mem_univ, true_and, Finset.mem_insert, Finset.mem_singleton]
  simp only [blk, Fin.ext_iff, Fin.val_zero, Fin.val_one, Fin.isValue, row, l4, Fin.val_mk, h2, h3]
  have := c.isLt; have := l.isLt
  omega

theorem laneHalf_eq (g : ℕ) (hg : g < 8) (h : ℕ) (hh : h < 2) (l : Fin 128) :
    laneHalf g h l = {(⟨512 * g + 256 * h + l.val, by omega⟩ : Fin 4096), ⟨512 * g + 256 * h + l.val + 128, by omega⟩} := by
  ext c
  simp only [laneHalf, Finset.mem_filter, Finset.mem_univ, true_and, Finset.mem_insert, Finset.mem_singleton]
  simp only [blk, half, Fin.ext_iff, Fin.val_mk]
  have := c.isLt; have := l.isLt
  omega

theorem rowSetL_succ_of_ne (g : ℕ) (r : Fin 4096) (l : Fin 128) (h : blk r ≠ g + 1) : rowSetL (g + 1) r l = rowSetL g r l := by
  unfold rowSetL
  apply Finset.filter_congr
  intro c _
  constructor <;> rintro ⟨h1, h2⟩ <;> exact ⟨by omega, h2⟩

theorem rowSetL_empty (g : ℕ) (r : Fin 4096) (l : Fin 128) (h : g < blk r) : rowSetL g r l = ∅ := by
  ext c; simp only [rowSetL, Finset.mem_filter, Finset.notMem_empty, iff_false]
  rintro ⟨_, h1, _⟩; omega

theorem rowSetL_lower (g : ℕ) (r : Fin 4096) (l : Fin 128) (hb : blk r = g) (hh : half r = 0) :
    rowSetL g r l = lanesBelow g l ∪ (laneHalf g 0 l).filter (fun c => c ≠ r) := by
  ext c
  simp only [blk, half] at hb hh
  simp only [rowSetL, rowSet, lanesBelow, laneHalf, Finset.mem_filter, Finset.mem_univ, true_and, Finset.mem_union]
  simp only [blk, half, ne_eq, Fin.ext_iff]
  omega

theorem rowSetL_upper (g : ℕ) (r : Fin 4096) (l : Fin 128) (hb : blk r = g) (hh : half r = 1) :
    rowSetL g r l = (lanesBelow g l ∪ laneHalf g 0 l) ∪ (laneHalf g 1 l).filter (fun c => c ≠ r) := by
  ext c
  simp only [blk, half] at hb hh
  simp only [rowSetL, rowSet, lanesBelow, laneHalf, Finset.mem_filter, Finset.mem_univ, true_and, Finset.mem_union]
  simp only [blk, half, ne_eq, Fin.ext_iff]
  omega

def blkRows (g : ℕ) : Finset (Fin 4096) := Finset.univ.filter fun r' => blk r' = g
def upRows (g : ℕ) : Finset (Fin 4096) := Finset.univ.filter fun r' => blk r' = g ∧ half r' = 1

theorem blkRows_eq_image (g : ℕ) (hg : g < 8) : blkRows g = Finset.univ.image (row g hg) := by
  ext r'
  simp only [blkRows, Finset.mem_filter, Finset.mem_univ, true_and, Finset.mem_image]
  constructor
  · intro h
    simp only [blk] at h
    exact ⟨⟨r'.val % 512, Nat.mod_lt _ (by norm_num)⟩, Fin.ext (by simp only [row, Fin.val_mk]; omega)⟩
  · rintro ⟨q, rfl⟩
    have := q.isLt
    simp only [blk, row, Fin.val_mk]; omega

theorem upRows_eq_image (g : ℕ) (hg : g < 8) : upRows g = Finset.univ.image (fun p : Fin 256 => row g hg (up p)) := by
  ext r'
  simp only [upRows, Finset.mem_filter, Finset.mem_univ, true_and, Finset.mem_image]
  constructor
  · intro h
    simp only [blk, half] at h
    exact ⟨⟨r'.val % 256, Nat.mod_lt _ (by norm_num)⟩, Fin.ext (by simp only [row, up, Fin.val_mk]; omega)⟩
  · rintro ⟨q, rfl⟩
    have := q.isLt
    simp only [blk, half, row, up, Fin.val_mk]; omega

theorem colSetG_succ_below (g : ℕ) (c : Fin 4096) (h : blk c ≤ g) : colSetG (g + 1) c = colSetG g c ∪ blkRows (g + 1) := by
  ext r'
  simp only [colSetG, colSet, blkRows, Finset.mem_filter, Finset.mem_univ, true_and, Finset.mem_union]
  omega

theorem colSetG_lower (g : ℕ) (c : Fin 4096) (hb : blk c = g) (hh : half c = 0) : colSetG g c = upRows g := by
  ext r'
  simp only [colSetG, colSet, upRows, Finset.mem_filter, Finset.mem_univ, true_and]
  have : half r' < 2 := by unfold half; omega
  omega

theorem colSetG_succ_rest (g : ℕ) (c : Fin 4096) (h : g + 1 < blk c ∨ (blk c = g + 1 ∧ half c = 1)) :
    colSetG (g + 1) c = colSetG g c := by
  ext r'
  simp only [colSetG, colSet, Finset.mem_filter, Finset.mem_univ, true_and]
  have : half r' < 2 := by unfold half; omega
  omega

theorem colSetG_empty (g : ℕ) (c : Fin 4096) (h : g < blk c) : colSetG g c = ∅ := by
  ext r'
  simp only [colSetG, colSet, Finset.mem_filter, Finset.mem_univ, true_and, Finset.notMem_empty, iff_false]
  omega

theorem inf_four (f : Fin 4096 → EReal) (a b c d : Fin 4096) :
    ({a, b, c, d} : Finset (Fin 4096)).inf f = min (min (f a) (f b)) (min (f c) (f d)) := by
  rw [Finset.inf_insert, Finset.inf_insert, Finset.inf_insert, Finset.inf_singleton]
  show min (f a) (min (f b) (min (f c) (f d))) = _
  rw [min_assoc]

theorem inf_pair (f : Fin 4096 → EReal) (a b : Fin 4096) :
    ({a, b} : Finset (Fin 4096)).inf f = min (f a) (f b) := by
  rw [Finset.inf_insert, Finset.inf_singleton]

theorem inf_pair_ne (f : Fin 4096 → EReal) (r a b : Fin 4096) :
    (({a, b} : Finset (Fin 4096)).filter (fun c => c ≠ r)).inf f
      = min (if a = r then ⊤ else f a) (if b = r then ⊤ else f b) := by
  by_cases ha : a = r <;> by_cases hb : b = r <;>
    simp [Finset.filter_insert, Finset.filter_singleton, ha, hb]

theorem term_T1 (x : Mat) {A B : ℕ} (xb : (⟨2, ![A, 1024]⟩ : Shape).Idx → EReal)
    (xm : (⟨2, ![B, 1024]⟩ : Shape).Idx → EReal) (s : EReal) (r c : Fin 4096) (p : Fin A) (j : Fin B)
    (hxb : ∀ k, xb (ix2 p k) = x r k) (hxm : ∀ k, xm (ix2 j k) = MTWO * x c k) (hs : s = sqn x c) :
    s + dot xb xm p j = T1 x r c := by
  unfold T1 gpk dot
  rw [hs]
  exact congrArg _ (Finset.sum_congr rfl fun k _ => by rw [hxb, hxm])

theorem term_T2 (x : Mat) {A B : ℕ} (xb : (⟨2, ![A, 1024]⟩ : Shape).Idx → EReal)
    (xm : (⟨2, ![B, 1024]⟩ : Shape).Idx → EReal) (s : EReal) (r c : Fin 4096) (p : Fin A) (j : Fin B)
    (hxb : ∀ k, xb (ix2 p k) = x r k) (hxm : ∀ k, xm (ix2 j k) = MTWO * x c k) (hs : s = sqn x r) :
    s + dot xb xm p j = T2 x r c := by
  unfold T2 gpk dot
  rw [hs]
  exact congrArg _ (Finset.sum_congr rfl fun k _ => by rw [hxb, hxm])

/-- One tile's row side extends the infimum over the blocks before i to the blocks up to i. -/
theorem tileRow_eq (x : Mat) (i : ℕ) (hi : i < 8) (xb xm : (⟨2, ![512, 1024]⟩ : Shape).Idx → EReal)
    (sq : (⟨2, ![1, 512]⟩ : Shape).Idx → EReal) (ra : (⟨2, ![512, 128]⟩ : Shape).Idx → EReal)
    (r : Fin 4096) (p : Fin 512) (l : Fin 128)
    (hxb : ∀ k, xb (ix2 p k) = x r k)
    (hxm : ∀ (j : Fin 512) k, xm (ix2 j k) = MTWO * x (row i hi j) k)
    (hsq : ∀ j : Fin 512, sq (ix2 0 j) = sqn x (row i hi j))
    (hra : ra (ix2 p l) = (lanesBelow i l).inf (T1 x r)) :
    tileRow xb xm sq ra p l = (lanesBelow (i + 1) l).inf (T1 x r) := by
  unfold tileRow
  rw [lanesBelow_succ, Finset.inf_union, laneBlk_eq i hi, inf_four, hra,
    term_T1 x xb xm _ r (row i hi (l4 l 0)) p (l4 l 0) hxb (hxm _) (hsq _),
    term_T1 x xb xm _ r (row i hi (l4 l 1)) p (l4 l 1) hxb (hxm _) (hsq _),
    term_T1 x xb xm _ r (row i hi (l4 l 2)) p (l4 l 2) hxb (hxm _) (hsq _),
    term_T1 x xb xm _ r (row i hi (l4 l 3)) p (l4 l 3) hxb (hxm _) (hsq _)]

/-- One tile's column side adds the 512 rows of the new block to a column's set. -/
theorem tileCol_eq (x : Mat) (g : ℕ) (hg : g + 1 < 8) (xb xm : (⟨2, ![512, 1024]⟩ : Shape).Idx → EReal)
    (sqv : (⟨2, ![512, 1]⟩ : Shape).Idx → EReal) (ca : (⟨2, ![1, 512]⟩ : Shape).Idx → EReal)
    (c : Fin 4096) (j : Fin 512) (hc : blk c ≤ g)
    (hxb : ∀ (q : Fin 512) k, xb (ix2 q k) = x (row (g + 1) hg q) k)
    (hxm : ∀ k, xm (ix2 j k) = MTWO * x c k)
    (hsqv : ∀ q : Fin 512, sqv (ix2 q 0) = sqn x (row (g + 1) hg q))
    (hca : ca (ix2 0 j) = (colSetG g c).inf (fun r' => T2 x r' c)) :
    tileCol xb xm sqv ca j = (colSetG (g + 1) c).inf (fun r' => T2 x r' c) := by
  unfold tileCol
  rw [colSetG_succ_below g c hc, Finset.inf_union, hca, blkRows_eq_image _ hg, Finset.inf_image, INF_eq]
  refine congrArg _ ?_
  show (Finset.univ : Finset (Fin 512)).inf _ = _
  exact Finset.inf_congr rfl fun q _ => term_T2 x xb xm _ (row (g + 1) hg q) c q j (hxb q) hxm (hsqv q)

/-- The diagonal tile: a row of the lower half meets its own half's two lane columns but itself. -/
theorem diagLower_eq (x : Mat) (g : ℕ) (hg : g < 8) (xb xm : (⟨2, ![512, 1024]⟩ : Shape).Idx → EReal)
    (sqcv : (⟨2, ![1, 512]⟩ : Shape).Idx → EReal) (a : EReal) (r : Fin 4096) (p : Fin 256) (l : Fin 128)
    (hr : r = row g hg (lo p))
    (hxb : ∀ (q : Fin 512) k, xb (ix2 q k) = x (row g hg q) k)
    (hxm : ∀ (q : Fin 512) k, xm (ix2 q k) = MTWO * x (row g hg q) k)
    (hsq : ∀ q : Fin 512, sqcv (ix2 0 q) = sqn x (row g hg q))
    (ha : a = (lanesBelow g l).inf (T1 x r)) :
    min a (min (if p.val = (l2 l 0).val then INF else sqcv (ix2 0 (lo (l2 l 0))) + dot xb xm (lo p) (lo (l2 l 0)))
               (if p.val = (l2 l 1).val then INF else sqcv (ix2 0 (lo (l2 l 1))) + dot xb xm (lo p) (lo (l2 l 1))))
      = (rowSetL g r l).inf (T1 x r) := by
  have hb : blk r = g := by subst hr; have := p.isLt; simp only [blk, row, lo, Fin.val_mk]; omega
  have hh : half r = 0 := by subst hr; have := p.isLt; simp only [half, row, lo, Fin.val_mk]; omega
  rw [rowSetL_lower g r l hb hh, Finset.inf_union, laneHalf_eq g hg 0 (by norm_num) l, inf_pair_ne, ← ha, INF_eq,
    term_T1 x xb xm _ r (row g hg (lo (l2 l 0))) (lo p) (lo (l2 l 0)) (fun k => by rw [hxb, hr]) (hxm _) (hsq _),
    term_T1 x xb xm _ r (row g hg (lo (l2 l 1))) (lo p) (lo (l2 l 1)) (fun k => by rw [hxb, hr]) (hxm _) (hsq _)]
  have e0 : (p.val = (l2 l 0).val) ↔ ((⟨512 * g + 256 * 0 + l.val, by have := l.isLt; omega⟩ : Fin 4096) = r) := by
    subst hr; simp only [Fin.ext_iff, row, lo, l2, Fin.val_mk, Fin.val_zero]; omega
  have e1 : (p.val = (l2 l 1).val) ↔ ((⟨512 * g + 256 * 0 + l.val + 128, by have := l.isLt; omega⟩ : Fin 4096) = r) := by
    subst hr; simp only [Fin.ext_iff, row, lo, l2, Fin.val_mk, Fin.val_one]; omega
  have c0 : row g hg (lo (l2 l 0)) = (⟨512 * g + 256 * 0 + l.val, by have := l.isLt; omega⟩ : Fin 4096) :=
    Fin.ext (by simp only [row, lo, l2, Fin.val_mk, Fin.val_zero]; omega)
  have c1 : row g hg (lo (l2 l 1)) = (⟨512 * g + 256 * 0 + l.val + 128, by have := l.isLt; omega⟩ : Fin 4096) :=
    Fin.ext (by simp only [row, lo, l2, Fin.val_mk, Fin.val_one]; omega)
  rw [c0, c1]
  simp only [e0, e1]

/-- A row of the upper half meets the lower half's two lane columns, then its own half's but itself. -/
theorem diagUpper_eq (x : Mat) (g : ℕ) (hg : g < 8) (xb xm : (⟨2, ![512, 1024]⟩ : Shape).Idx → EReal)
    (sqcv : (⟨2, ![1, 512]⟩ : Shape).Idx → EReal) (a t0 t1 : EReal) (r : Fin 4096) (p : Fin 256) (l : Fin 128)
    (hr : r = row g hg (up p))
    (hxb : ∀ (q : Fin 512) k, xb (ix2 q k) = x (row g hg q) k)
    (hxm : ∀ (q : Fin 512) k, xm (ix2 q k) = MTWO * x (row g hg q) k)
    (hsq : ∀ q : Fin 512, sqcv (ix2 0 q) = sqn x (row g hg q))
    (ha : a = (lanesBelow g l).inf (T1 x r))
    (ht0 : t0 = sqcv (ix2 0 (lo (l2 l 0))) + dot xb xm (up p) (lo (l2 l 0)))
    (ht1 : t1 = sqcv (ix2 0 (lo (l2 l 1))) + dot xb xm (up p) (lo (l2 l 1))) :
    min (min a (min t0 t1))
        (min (if p.val = (l2 l 0).val then INF else sqcv (ix2 0 (up (l2 l 0))) + dot xb xm (up p) (up (l2 l 0)))
             (if p.val = (l2 l 1).val then INF else sqcv (ix2 0 (up (l2 l 1))) + dot xb xm (up p) (up (l2 l 1))))
      = (rowSetL g r l).inf (T1 x r) := by
  have hb : blk r = g := by subst hr; have := p.isLt; simp only [blk, row, up, Fin.val_mk]; omega
  have hh : half r = 1 := by subst hr; have := p.isLt; simp only [half, row, up, Fin.val_mk]; omega
  rw [rowSetL_upper g r l hb hh, Finset.inf_union, Finset.inf_union, laneHalf_eq g hg 0 (by norm_num) l,
    laneHalf_eq g hg 1 (by norm_num) l, inf_pair, inf_pair_ne, ← ha, INF_eq, ht0, ht1,
    term_T1 x xb xm _ r (row g hg (lo (l2 l 0))) (up p) (lo (l2 l 0)) (fun k => by rw [hxb, hr]) (hxm _) (hsq _),
    term_T1 x xb xm _ r (row g hg (lo (l2 l 1))) (up p) (lo (l2 l 1)) (fun k => by rw [hxb, hr]) (hxm _) (hsq _),
    term_T1 x xb xm _ r (row g hg (up (l2 l 0))) (up p) (up (l2 l 0)) (fun k => by rw [hxb, hr]) (hxm _) (hsq _),
    term_T1 x xb xm _ r (row g hg (up (l2 l 1))) (up p) (up (l2 l 1)) (fun k => by rw [hxb, hr]) (hxm _) (hsq _)]
  have e0 : (p.val = (l2 l 0).val) ↔ ((⟨512 * g + 256 * 1 + l.val, by have := l.isLt; omega⟩ : Fin 4096) = r) := by
    subst hr; simp only [Fin.ext_iff, row, up, l2, Fin.val_mk, Fin.val_zero]; omega
  have e1 : (p.val = (l2 l 1).val) ↔ ((⟨512 * g + 256 * 1 + l.val + 128, by have := l.isLt; omega⟩ : Fin 4096) = r) := by
    subst hr; simp only [Fin.ext_iff, row, up, l2, Fin.val_mk, Fin.val_one]; omega
  have c0 : row g hg (lo (l2 l 0)) = (⟨512 * g + 256 * 0 + l.val, by have := l.isLt; omega⟩ : Fin 4096) :=
    Fin.ext (by simp only [row, lo, l2, Fin.val_mk, Fin.val_zero]; omega)
  have c1 : row g hg (lo (l2 l 1)) = (⟨512 * g + 256 * 0 + l.val + 128, by have := l.isLt; omega⟩ : Fin 4096) :=
    Fin.ext (by simp only [row, lo, l2, Fin.val_mk, Fin.val_one]; omega)
  have d0 : row g hg (up (l2 l 0)) = (⟨512 * g + 256 * 1 + l.val, by have := l.isLt; omega⟩ : Fin 4096) :=
    Fin.ext (by simp only [row, up, l2, Fin.val_mk, Fin.val_zero]; omega)
  have d1 : row g hg (up (l2 l 1)) = (⟨512 * g + 256 * 1 + l.val + 128, by have := l.isLt; omega⟩ : Fin 4096) :=
    Fin.ext (by simp only [row, up, l2, Fin.val_mk, Fin.val_one]; omega)
  rw [c0, c1, d0, d1]
  simp only [e0, e1]

/-- A column of the lower half meets the 256 rows of the upper half. -/
theorem diagCol_eq (x : Mat) (g : ℕ) (hg : g < 8) (xb xm : (⟨2, ![512, 1024]⟩ : Shape).Idx → EReal)
    (sqv : (⟨2, ![512, 1]⟩ : Shape).Idx → EReal) (gp : (⟨2, ![256, 256]⟩ : Shape).Idx → EReal)
    (c : Fin 4096) (cc : Fin 256) (hc : c = row g hg (lo cc))
    (hxb : ∀ (q : Fin 512) k, xb (ix2 q k) = x (row g hg q) k)
    (hxm : ∀ (q : Fin 512) k, xm (ix2 q k) = MTWO * x (row g hg q) k)
    (hsqv : ∀ q : Fin 512, sqv (ix2 q 0) = sqn x (row g hg q))
    (hgp : ∀ p : Fin 256, gp (ix2 p cc) = dot xb xm (up p) (lo cc)) :
    (Finset.univ : Finset (Fin 256)).fold min INF (fun p => sqv (ix2 (up p) 0) + gp (ix2 p cc))
      = (colSetG g c).inf (fun r' => T2 x r' c) := by
  have hb : blk c = g := by subst hc; have := cc.isLt; simp only [blk, row, lo, Fin.val_mk]; omega
  have hh : half c = 0 := by subst hc; have := cc.isLt; simp only [half, row, lo, Fin.val_mk]; omega
  rw [colSetG_lower g c hb hh, upRows_eq_image g hg, Finset.inf_image, INF_eq]
  show (Finset.univ : Finset (Fin 256)).inf _ = _
  exact Finset.inf_congr rfl fun p _ => by
    rw [hgp p]
    exact term_T2 x xb xm _ (row g hg (up p)) c (up p) (lo cc) (hxb _) (fun k => by rw [hxm, hc]) (hsqv _)

theorem rowSetL0_far (r : Fin 4096) (l : Fin 128) (h : 512 ≤ r.val) : rowSetL 0 r l = ∅ := by
  ext c
  have := c.isLt; have := l.isLt; have := r.isLt
  simp only [rowSetL, rowSet, Finset.mem_filter, Finset.mem_univ, true_and, Finset.notMem_empty, iff_false]
  simp only [blk, half, Fin.ext_iff, ne_eq]
  omega

theorem colSetG0_far (c : Fin 4096) (h : 256 ≤ c.val) : colSetG 0 c = ∅ := by
  ext r'
  have := c.isLt; have := r'.isLt
  simp only [colSetG, colSet, Finset.mem_filter, Finset.mem_univ, true_and, Finset.notMem_empty, iff_false]
  simp only [blk, half]
  omega

/-- A load of the whole arriving block reads the block. -/
theorem load_x0 (a : Memref sig .tc .vmem S512x1024 .f32) (ha : a.IsWhole) (x0 : Vec Ideal S512x1024 .f32) :
    View.readAt (Elt Ideal) a.view (Rect.unit (s := S512x1024) ![0, 0] S512x1024.size Gen.inb_S512x1024_S512x1024_0_0).toLoadRect
      (ha.unread x0) = x0 := by
  rw [View.readAt_eq_ld, ha.read_unread]
  exact View.ld_unit_zero (by funext a; fin_cases a <;> rfl) _ _

theorem rowsq_eq (x : Mat) {A : ℕ} (xb : (⟨2, ![A, 1024]⟩ : Shape).Idx → EReal) (p : Fin A) (r : Fin 4096)
    (hxb : ∀ k, xb (ix2 p k) = x r k) : rowsq xb p = sqn x r := by
  unfold rowsq sqn
  exact Finset.sum_congr rfl fun k _ => by rw [hxb]

section Reads

variable {sig : RefSig} {κ : Kind} {sp : Space} {e : EltTy} {Val : EltTy → Type}

/-- Reading through stores, newest first: a row under the newest store reads its payload, any other row what was there before. -/
theorem read_rows_mem {n0 n1 m0 : ℕ} (v : View sig κ sp (⟨2, ![n0, n1]⟩ : Shape) e) (f : v.ty.Contents Val)
    {off : Fin 2 → ℕ} (inb : ∀ a : Fin 2, off a + (![m0, n1] : Fin 2 → ℕ) a ≤ (![n0, n1] : Fin 2 → ℕ) a)
    (w : (⟨2, ![m0, n1]⟩ : Shape).Idx → Val e) (L : List (View.Piece Val (⟨2, ![n0, n1]⟩ : Shape) e))
    (r : Fin n0) (k : Fin n1) {o : ℕ} (hoff : off = ![o, 0]) (p : Fin m0) (hp : r.val = o + p.val) :
    v.read Val (v.writes Val f ((⟨Rect.unit (s := ⟨2, ![n0, n1]⟩) off ![m0, n1] inb, w⟩ :
        View.Piece Val (⟨2, ![n0, n1]⟩ : Shape) e) :: L)) (ix2 r k) = w (ix2 p k) :=
  View.read_writes_cons_rows_of_mem v f inb w L (ix2 r k) (ix2 p k) hoff hp rfl

theorem read_rows_not_mem {n0 n1 m0 : ℕ} (v : View sig κ sp (⟨2, ![n0, n1]⟩ : Shape) e) (f : v.ty.Contents Val)
    {off : Fin 2 → ℕ} (inb : ∀ a : Fin 2, off a + (![m0, n1] : Fin 2 → ℕ) a ≤ (![n0, n1] : Fin 2 → ℕ) a)
    (w : (⟨2, ![m0, n1]⟩ : Shape).Idx → Val e) (L : List (View.Piece Val (⟨2, ![n0, n1]⟩ : Shape) e))
    (r : Fin n0) (k : Fin n1) {o : ℕ} (hoff : off = ![o, 0]) (h : r.val < o ∨ o + m0 ≤ r.val) :
    v.read Val (v.writes Val f ((⟨Rect.unit (s := ⟨2, ![n0, n1]⟩) off ![m0, n1] inb, w⟩ :
        View.Piece Val (⟨2, ![n0, n1]⟩ : Shape) e) :: L)) (ix2 r k) = v.read Val (v.writes Val f L) (ix2 r k) :=
  View.read_writes_cons_rows_of_not_mem v f inb w L (ix2 r k) hoff rfl h

theorem read_cols_mem {n1 m1 : ℕ} (v : View sig κ sp (⟨2, ![1, n1]⟩ : Shape) e) (f : v.ty.Contents Val)
    {off : Fin 2 → ℕ} (inb : ∀ a : Fin 2, off a + (![1, m1] : Fin 2 → ℕ) a ≤ (![1, n1] : Fin 2 → ℕ) a)
    (w : (⟨2, ![1, m1]⟩ : Shape).Idx → Val e) (L : List (View.Piece Val (⟨2, ![1, n1]⟩ : Shape) e))
    (c : Fin n1) {o : ℕ} (hoff : off = ![0, o]) (j : Fin m1) (hj : c.val = o + j.val) :
    v.read Val (v.writes Val f ((⟨Rect.unit (s := ⟨2, ![1, n1]⟩) off ![1, m1] inb, w⟩ :
        View.Piece Val (⟨2, ![1, n1]⟩ : Shape) e) :: L)) (ix2 0 c) = w (ix2 0 j) :=
  View.read_writes_cons_unit_of_mem v f inb w L (ix2 0 c) (ix2 0 j) hoff (Fin.forall_fin_two.mpr ⟨rfl, hj⟩)

theorem read_cols_not_mem {n1 m1 : ℕ} (v : View sig κ sp (⟨2, ![1, n1]⟩ : Shape) e) (f : v.ty.Contents Val)
    {off : Fin 2 → ℕ} (inb : ∀ a : Fin 2, off a + (![1, m1] : Fin 2 → ℕ) a ≤ (![1, n1] : Fin 2 → ℕ) a)
    (w : (⟨2, ![1, m1]⟩ : Shape).Idx → Val e) (L : List (View.Piece Val (⟨2, ![1, n1]⟩ : Shape) e))
    (c : Fin n1) {o : ℕ} (hoff : off = ![0, o]) (h : c.val < o ∨ o + m1 ≤ c.val) :
    v.read Val (v.writes Val f ((⟨Rect.unit (s := ⟨2, ![1, n1]⟩) off ![1, m1] inb, w⟩ :
        View.Piece Val (⟨2, ![1, n1]⟩ : Shape) e) :: L)) (ix2 0 c) = v.read Val (v.writes Val f L) (ix2 0 c) :=
  View.read_writes_cons_unit_of_not_mem v f inb w L (ix2 0 c) hoff 1 h

theorem readAt_rows {n0 n1 m0 : ℕ} (v : View sig κ sp (⟨2, ![n0, n1]⟩ : Shape) e) (f : v.ty.Contents Val)
    {off : Fin 2 → ℕ} (inb : ∀ a : Fin 2, off a + (![m0, n1] : Fin 2 → ℕ) a ≤ (![n0, n1] : Fin 2 → ℕ) a)
    {o : ℕ} (hoff : off = ![o, 0]) (p : Fin m0) (k : Fin n1) (r : Fin n0) (hr : r.val = o + p.val) :
    v.readAt Val (Rect.unit (s := ⟨2, ![n0, n1]⟩) off ![m0, n1] inb).toLoadRect f (ix2 p k) = v.read Val f (ix2 r k) := by
  subst hoff
  rw [View.readAt_apply]
  refine congrArg _ (funext fun a => Fin.ext ?_)
  match a with
  | ⟨0, _⟩ => show o + 1 * p.val = r.val; omega
  | ⟨1, _⟩ => show 0 + 1 * k.val = k.val; omega

theorem readAt_cols {n1 m1 : ℕ} (v : View sig κ sp (⟨2, ![1, n1]⟩ : Shape) e) (f : v.ty.Contents Val)
    {off : Fin 2 → ℕ} (inb : ∀ a : Fin 2, off a + (![1, m1] : Fin 2 → ℕ) a ≤ (![1, n1] : Fin 2 → ℕ) a)
    {o : ℕ} (hoff : off = ![0, o]) (j : Fin m1) (c : Fin n1) (hc : c.val = o + j.val) :
    v.readAt Val (Rect.unit (s := ⟨2, ![1, n1]⟩) off ![1, m1] inb).toLoadRect f (ix2 0 j) = v.read Val f (ix2 0 c) := by
  subst hoff
  rw [View.readAt_apply]
  refine congrArg _ (funext fun a => Fin.ext ?_)
  match a with
  | ⟨0, _⟩ => rfl
  | ⟨1, _⟩ => show o + 1 * j.val = c.val; omega

theorem readCov_rows [∀ e, Nonempty (Val e)] {n0 n1 m0 : ℕ} (v : View sig κ sp (⟨2, ![n0, n1]⟩ : Shape) e)
    (L : List (View.Piece Val (⟨2, ![n0, n1]⟩ : Shape) e))
    {off : Fin 2 → ℕ} (inb : ∀ a : Fin 2, off a + (![m0, n1] : Fin 2 → ℕ) a ≤ (![n0, n1] : Fin 2 → ℕ) a)
    {o : ℕ} (hoff : off = ![o, 0]) (p : Fin m0) (k : Fin n1) (r : Fin n0) (hr : r.val = o + p.val) :
    v.readCov L (Rect.unit (s := ⟨2, ![n0, n1]⟩) off ![m0, n1] inb).toLoadRect (ix2 p k)
      = v.read Val (v.writes Val v.junk L) (ix2 r k) :=
  readAt_rows v (v.writes Val v.junk L) inb hoff p k r hr

end Reads

end Cert.KernelIdeal.StepLib

end
-- ==== Proof.Step0.lean ====
import proofs.«108340_g74552042324289_cont_9to1_m_1244_4_alg».proof.Proof.Pay
import proofs.«108340_g74552042324289_cont_9to1_m_1244_4_alg».proof.Proof.Spec
import proofs.«108340_g74552042324289_cont_9to1_m_1244_4_alg».proof.Proof.Lits
import proofs.«108340_g74552042324289_cont_9to1_m_1244_4_alg».proof.Proof.StepLibG
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KoLeo Idealize.ShloMosaic.ValueIdx

namespace Pt0

open Cert.KernelIdeal.StepLib

theorem off1 : k0_off1 (grid0.coords t0_0) = ![0, 0] := by decide
theorem off2 : k0_off2 (grid0.coords t0_0) = ![0, 0] := by decide
theorem off3 : k0_off3 (grid0.coords t0_0) = ![0, 0] := by decide
theorem off11a : k0_off11 (grid0.coords t0_0) 0#32 = ![0, 0] := by decide
theorem off11b : k0_off11 (grid0.coords t0_0) 256#32 = ![256, 0] := by decide
theorem off12 : k0_off12 (grid0.coords t0_0) = ![0, 0] := by decide

theorem load_block (B : Ops) (x0 : Vec Ideal S512x1024 .f32) :
    View.readAt (Elt Ideal) B.a1.view (Rect.unit ![0, 0] ![512, 1024] inb_S512x1024_S512x1024_0_0).toLoadRect (B.h1.unread x0) = x0 := by
  rw [View.readAt_eq_ld, B.h1.read_unread]
  exact View.ld_unit_zero (funext fun a => by fin_cases a <;> rfl) _ x0

theorem rowsq_eq (x : Mat) (x0 : Vec Ideal S512x1024 .f32)
    (hx0 : ∀ (p : Fin 512) (k : Fin 1024), x0 (ix2 p k) = x ⟨512 * 0 + p.val, by omega⟩ k) (q : Fin 512) :
    Pay.rowsq x0 q = sqn x (row 0 (by norm_num) q) := by
  unfold Pay.rowsq sqn
  exact Finset.sum_congr rfl fun k _ => by rw [hx0]

theorem read_reset_rows (B : Ops) (r : Fin 4096) (l : Fin 128) :
    View.read (Elt Ideal) B.a6.view (B.a6.view.writes (Elt Ideal) B.a6.view.junk (kernelRun0.sl.H6_1 (F := Ideal))) (ix2 r l) = ⊤ := by
  unfold kernelRun0.sl.H6_1
  refine (StepLib.read_rows_mem B.a6.view _ _ _ _ r l (o := 0) rfl r (by omega)).trans ?_
  rw [Pay.pay3_apply, INF_eq]

theorem read_reset_cols (B : Ops) (c' : Fin 4096) :
    View.read (Elt Ideal) B.a7.view (B.a7.view.writes (Elt Ideal) B.a7.view.junk (kernelRun0.sl.H7_1 (F := Ideal))) (ix2 0 c') = ⊤ := by
  unfold kernelRun0.sl.H7_1
  refine (StepLib.read_cols_mem B.a7.view _ _ _ _ c' (o := 0) rfl c' (by omega)).trans ?_
  rw [Pay.pay4_apply, INF_eq]

end Pt0

open Pt0 in

/-- Block 0 from any scratch: the running minima are reset to +∞ and the diagonal tile is taken in. -/
theorem inv_step0 (c : Dev nD) (B : Ops)
    (hc1 : cond1 (grid0.coords t0_0)) (hc2 : ¬k0_cond2 (grid0.coords t0_0) = 1#1) (hc3 : ¬k0_cond3 (grid0.coords t0_0) = 1#1) (hc4 : ¬k0_cond4 (grid0.coords t0_0) = 1#1) (hc5 : ¬k0_cond5 (grid0.coords t0_0) = 1#1) (hc6 : ¬k0_cond6 (grid0.coords t0_0) = 1#1) (hc7 : ¬k0_cond7 (grid0.coords t0_0) = 1#1) (hc8 : ¬k0_cond8 (grid0.coords t0_0) = 1#1) (hc9 : ¬k0_cond9 (grid0.coords t0_0) = 1#1)
    (x : Mat) (x0 : Vec Ideal S512x1024 .f32)
    (hx0 : ∀ (p : Fin 512) (k : Fin 1024), x0 (ix2 p k) = x ⟨512 * 0 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32) :
    Inv x 0 (stOf (kernelRun0 (F := Ideal) c (grid0.coords t0_0) B hc1 hc2 hc3 hc4 hc5 hc6 hc7 hc8 hc9 x0 s0 s1 s2 s3 s4)) := by

  have h0 : (0 : ℕ) < 8 := by norm_num
  have hxb : ∀ (q : Fin 512) (k : Fin 1024), x0 (ix2 q k) = x (StepLib.row 0 h0 q) k := fun q k => hx0 q k
  have hxm : ∀ (q : Fin 512) (k : Fin 1024), k0_pay6 (F := Ideal) x0 (ix2 q k) = MTWO * x (StepLib.row 0 h0 q) k :=
    fun q k => by rw [Pay.pay6_apply, hx0]
  have hsq : ∀ q : Fin 512, k0_pay9 (F := Ideal) x0 (ix2 0 q) = sqn x (StepLib.row 0 h0 q) :=
    fun q => by rw [Pay.pay9_apply, Pt0.rowsq_eq x x0 hx0]
  have hsqv : ∀ q : Fin 512, k0_pay8 (F := Ideal) x0 (ix2 q 0) = sqn x (StepLib.row 0 h0 q) :=
    fun q => by rw [Pay.pay8_apply, Pt0.rowsq_eq x x0 hx0]
  have eR : kernelRun0.sl.r c B x0 = x0 := by unfold kernelRun0.sl.r; rw [Pt0.load_block, Pay.pay5_eq]
  have eR1 : kernelRun0.sl.r_1 c B x0 = k0_pay6 (F := Ideal) x0 := by unfold kernelRun0.sl.r_1; rw [Pt0.load_block]
  have eR2 : kernelRun0.sl.r_2 c B x0 = k0_pay8 (F := Ideal) x0 := by unfold kernelRun0.sl.r_2; rw [Pt0.load_block]
  have eR3 : kernelRun0.sl.r_3 c B x0 = k0_pay9 (F := Ideal) x0 := by unfold kernelRun0.sl.r_3; rw [Pt0.load_block]
  refine ⟨?_, ?_, ?_, ?_, ?_⟩

  · intro r k hb
    simp only [stOf, St.ofVecs]
    dsimp only [kernelRun0]
    have hr : r.val < 512 := by unfold blk at hb; omega
    have er : StepLib.row 0 h0 (⟨r.val, hr⟩ : Fin 512) = r := Fin.ext (by show 512 * 0 + r.val = r.val; omega)
    rw [Pt0.load_block]
    rw [StepLib.read_rows_mem B.a3.view _ _ _ _ r k Pt0.off1 (⟨r.val, hr⟩ : Fin 512) (by show r.val = 0 + r.val; omega)]
    rw [Pay.pay7_apply, hxb, er]

  · intro r hb
    simp only [stOf, St.ofVecs]
    dsimp only [kernelRun0]
    have hr : r.val < 512 := by unfold blk at hb; omega
    have er : StepLib.row 0 h0 (⟨r.val, hr⟩ : Fin 512) = r := Fin.ext (by show 512 * 0 + r.val = r.val; omega)
    rw [Pt0.load_block]
    rw [StepLib.read_rows_mem B.a4.view _ _ _ _ r 0 Pt0.off2 (⟨r.val, hr⟩ : Fin 512) (by show r.val = 0 + r.val; omega)]
    rw [Pay.pay10_apply, Pt0.rowsq_eq x x0 hx0, er]

  · intro r hb
    simp only [stOf, St.ofVecs]
    dsimp only [kernelRun0]
    have hr : r.val < 512 := by unfold blk at hb; omega
    have er : StepLib.row 0 h0 (⟨r.val, hr⟩ : Fin 512) = r := Fin.ext (by show 512 * 0 + r.val = r.val; omega)
    rw [Pt0.load_block]
    rw [StepLib.read_cols_mem B.a5.view _ _ _ _ r Pt0.off3 (⟨r.val, hr⟩ : Fin 512) (by show r.val = 0 + r.val; omega)]
    rw [Pay.pay11_apply, Pt0.rowsq_eq x x0 hx0, er]

  · intro r l
    simp only [stOf, St.ofVecs]
    dsimp only [kernelRun0]
    by_cases h1 : r.val < 256
    · rw [StepLib.read_rows_not_mem B.a6.view _ _ _ _ r l Pt0.off11b (by omega)]
      unfold kernelRun0.sl.H6_3
      rw [StepLib.read_rows_not_mem B.a6.view _ _ _ _ r l Pt0.off11b (by omega)]
      unfold kernelRun0.sl.H6_2
      rw [StepLib.read_rows_mem B.a6.view _ _ _ _ r l Pt0.off11a (⟨r.val, h1⟩ : Fin 256) (by show r.val = 0 + r.val; omega)]
      rw [Pay.pay33_apply, eR, eR1, eR3]
      refine StepLib.diagLower_eq x 0 h0 x0 (k0_pay6 (F := Ideal) x0) (k0_pay9 (F := Ideal) x0) _ r (⟨r.val, h1⟩ : Fin 256) l
        (Fin.ext (by show r.val = 512 * 0 + r.val; omega)) hxb hxm hsq ?_
      rw [StepLib.lanesBelow_zero, Finset.inf_empty]
      unfold kernelRun0.sl.v60
      rw [StepLib.readAt_rows B.a6.view _ _ Pt0.off11a (⟨r.val, h1⟩ : Fin 256) l r (by show r.val = 0 + r.val; omega)]
      exact Pt0.read_reset_rows B r l
    · by_cases h2 : r.val < 512
      · have hp : r.val - 256 < 256 := by omega
        rw [StepLib.read_rows_mem B.a6.view _ _ _ _ r l Pt0.off11b (⟨r.val - 256, hp⟩ : Fin 256) (by show r.val = 256 + (r.val - 256); omega)]
        rw [Pay.pay1_eq]
        unfold kernelRun0.sl.r_6
        rw [Pay.pay38_apply, eR, eR1, eR3]

        have hv : kernelRun0.sl.v115 c (grid0.coords t0_0) B x0 (ix2 (⟨r.val - 256, hp⟩ : Fin 256) l)
            = min ⊤ (min (k0_pay9 (F := Ideal) x0 (ix2 0 (Pay.lo (Pay.l2 l 0))) + Pay.dot x0 (k0_pay6 (F := Ideal) x0) (Pay.up ⟨r.val - 256, hp⟩) (Pay.lo (Pay.l2 l 0)))
                         (k0_pay9 (F := Ideal) x0 (ix2 0 (Pay.lo (Pay.l2 l 1))) + Pay.dot x0 (k0_pay6 (F := Ideal) x0) (Pay.up ⟨r.val - 256, hp⟩) (Pay.lo (Pay.l2 l 1)))) := by
          unfold kernelRun0.sl.v115
          show View.readAt (Elt Ideal) B.a6.view _ (B.a6.view.writes (Elt Ideal) B.a6.view.junk _) _ = _
          rw [StepLib.readAt_rows B.a6.view _ _ Pt0.off11b (⟨r.val - 256, hp⟩ : Fin 256) l r (by show r.val = 256 + (r.val - 256); omega)]
          unfold kernelRun0.sl.H6_3
          rw [StepLib.read_rows_mem B.a6.view _ _ _ _ r l Pt0.off11b (⟨r.val - 256, hp⟩ : Fin 256) (by show r.val = 256 + (r.val - 256); omega)]
          rw [Pay.pay36_apply]
          unfold kernelRun0.sl.r_5
          rw [Pay.pay35_apply, Pay.pay35_apply, eR, eR1, eR3]
          congr 1
          unfold kernelRun0.sl.v78
          rw [StepLib.readAt_rows B.a6.view _ _ Pt0.off11b (⟨r.val - 256, hp⟩ : Fin 256) l r (by show r.val = 256 + (r.val - 256); omega)]
          unfold kernelRun0.sl.H6_2
          rw [StepLib.read_rows_not_mem B.a6.view _ _ _ _ r l Pt0.off11a (by omega)]
          exact Pt0.read_reset_rows B r l
        rw [hv]
        exact StepLib.diagUpper_eq x 0 h0 x0 (k0_pay6 (F := Ideal) x0) (k0_pay9 (F := Ideal) x0) ⊤ _ _ r (⟨r.val - 256, hp⟩ : Fin 256) l
          (Fin.ext (by show r.val = 512 * 0 + (256 + (r.val - 256)); omega)) hxb hxm hsq
          (by rw [StepLib.lanesBelow_zero, Finset.inf_empty]) rfl rfl
      · rw [StepLib.read_rows_not_mem B.a6.view _ _ _ _ r l Pt0.off11b (by omega)]
        unfold kernelRun0.sl.H6_3
        rw [StepLib.read_rows_not_mem B.a6.view _ _ _ _ r l Pt0.off11b (by omega)]
        unfold kernelRun0.sl.H6_2
        rw [StepLib.read_rows_not_mem B.a6.view _ _ _ _ r l Pt0.off11a (by omega)]
        rw [Pt0.read_reset_rows, StepLib.rowSetL0_far r l (by omega), Finset.inf_empty]

  · intro c'
    simp only [stOf, St.ofVecs]
    dsimp only [kernelRun0]
    by_cases h1 : c'.val < 256
    · rw [StepLib.read_cols_mem B.a7.view _ _ _ _ c' Pt0.off12 (⟨c'.val, h1⟩ : Fin 256) (by show c'.val = 0 + c'.val; omega)]
      rw [Pay.pay37_apply, eR2]
      rw [StepLib.readAt_cols B.a7.view _ _ Pt0.off12 (⟨c'.val, h1⟩ : Fin 256) c' (by show c'.val = 0 + c'.val; omega)]
      rw [Pt0.read_reset_cols, min_eq_right le_top]
      refine StepLib.diagCol_eq x 0 h0 x0 (k0_pay6 (F := Ideal) x0) (k0_pay8 (F := Ideal) x0) _ c' (⟨c'.val, h1⟩ : Fin 256)
        (Fin.ext (by show c'.val = 512 * 0 + c'.val; omega)) hxb hxm hsqv ?_
      intro p
      unfold kernelRun0.sl.r_4
      rw [Pay.pay34_apply, eR, eR1]
    · rw [StepLib.read_cols_not_mem B.a7.view _ _ _ _ c' Pt0.off12 (by omega)]
      rw [Pt0.read_reset_cols, StepLib.colSetG0_far c' (by omega), Finset.inf_empty]

end Cert.KernelIdeal.Gen

end
-- ==== Proof.Step1.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row1 (j : Fin 512) : Fin 4096 := ⟨512 * 1 + j.val, by omega⟩

theorem inv_step1 (c : Dev nD) (B : Ops)
    (hc1 : ¬cond1 (grid0.coords t0_1)) (hc2 : k0_cond2 (grid0.coords t0_1) = 1#1) (hc3 : ¬k0_cond3 (grid0.coords t0_1) = 1#1) (hc4 : ¬k0_cond4 (grid0.coords t0_1) = 1#1) (hc5 : ¬k0_cond5 (grid0.coords t0_1) = 1#1) (hc6 : ¬k0_cond6 (grid0.coords t0_1) = 1#1) (hc7 : ¬k0_cond7 (grid0.coords t0_1) = 1#1) (hc8 : ¬k0_cond8 (grid0.coords t0_1) = 1#1) (hc9 : ¬k0_cond9 (grid0.coords t0_1) = 1#1)
    (x : Mat) (x0 : Vec Ideal S512x1024 .f32)
    (hx0 : ∀ (p : Fin 512) (k : Fin 1024), x0 (ix2 p k) = x ⟨512 * 1 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 0 (St.ofVecs s0 s1 s2 s3 s4)) :
    Inv x 1 (stOf (kernelRun1 (F := Ideal) c (grid0.coords t0_1) B hc1 hc2 hc3 hc4 hc5 hc6 hc7 hc8 hc9 x0 s0 s1 s2 s3 s4)) := by
  have o1 : k0_off1 (grid0.coords t0_1) = ![512, 0] := by decide
  have o2 : k0_off2 (grid0.coords t0_1) = ![512, 0] := by decide
  have o3 : k0_off3 (grid0.coords t0_1) = ![0, 512] := by decide
  have hX := load_x0 B.a1 B.h1 x0
  have hs0 : ∀ (rr : Fin 4096) (k : Fin 1024), blk rr ≤ 0 → s0 (ix2 rr k) = MTWO * x rr k := hinv.xm2
  have hs1 : ∀ rr : Fin 4096, blk rr ≤ 0 → s1 (ix2 rr 0) = sqn x rr := hinv.sqr
  have hs2 : ∀ rr : Fin 4096, blk rr ≤ 0 → s2 (ix2 0 rr) = sqn x rr := hinv.sqc
  have hs3 : ∀ (rr : Fin 4096) (l : Fin 128), s3 (ix2 rr l) = (rowSetL 0 rr l).inf (T1 x rr) := hinv.racc
  have hs4 : ∀ cc : Fin 4096, s4 (ix2 0 cc) = (colSetG 0 cc).inf (fun r' => T2 x r' cc) := hinv.cacc
  have hx0' : ∀ (p : Fin 512) (k : Fin 1024), x0 (ix2 p k) = x (row1 p) k := hx0
  have blkcase : ∀ r : Fin 4096, blk r = 1 → ∃ p : Fin 512, r = row1 p := fun r hb =>
    ⟨⟨r.val - 512, by have := r.isLt; simp only [blk] at hb; omega⟩, Fin.ext (by
      simp only [blk] at hb
      show r.val = 512 * 1 + (r.val - 512)
      omega)⟩
  have o4 : k0_off4 (grid0.coords t0_1) = ![512, 0] := by decide
  have o11a : k0_off11 (grid0.coords t0_1) 0#32 = ![512, 0] := by decide
  have o11b : k0_off11 (grid0.coords t0_1) 256#32 = ![768, 0] := by decide
  have o12 : k0_off12 (grid0.coords t0_1) = ![0, 512] := by decide
  have hr : kernelRun1.sl.r (F := Ideal) c B x0 = x0 := by
    unfold kernelRun1.sl.r
    rw [hX, pay5_eq]
  have hxm1 : ∀ (j : Fin 512) (k : Fin 1024), kernelRun1.sl.r_1 (F := Ideal) c B x0 (ix2 j k) = MTWO * x (row1 j) k := by
    intro j k
    unfold kernelRun1.sl.r_1
    rw [hX, pay6_apply, hx0']
  have hsq2 : ∀ j : Fin 512, kernelRun1.sl.r_2 (F := Ideal) c B x0 (ix2 j 0) = sqn x (row1 j) := by
    intro j
    unfold kernelRun1.sl.r_2
    rw [hX, pay8_apply]
    exact rowsq_eq x x0 j (row1 j) (hx0' j)
  have hsq3 : ∀ j : Fin 512, kernelRun1.sl.r_3 (F := Ideal) c B x0 (ix2 0 j) = sqn x (row1 j) := by
    intro j
    unfold kernelRun1.sl.r_3
    rw [hX, pay9_apply]
    exact rowsq_eq x x0 j (row1 j) (hx0' j)
  have hxm : ∀ (o : ℕ) (ho : o + 512 ≤ 512) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun1.sl.H3_1 (F := Ideal) c (grid0.coords t0_1) B x0)) (ix2 j k) = MTWO * x cj k := by
    intro o ho inb3 j k cj hcj
    rw [StepLib.readAt_rows _ _ _ rfl j k cj hcj]
    unfold kernelRun1.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 512) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun1.sl.H5_1 (F := Ideal) c (grid0.coords t0_1) B x0)) (ix2 0 j) = sqn x cj := by
    intro o ho inb5 j cj hcj
    rw [StepLib.readAt_cols _ _ _ rfl j cj hcj]
    unfold kernelRun1.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun1.sl.H6_1 (F := Ideal) c (grid0.coords t0_1) B hc2 x0 s0 s2 s3)) (ix2 (row1 p) l)
        = (lanesBelow 1 l).inf (T1 x (row1 p)) := by
    intro f p l
    unfold kernelRun1.sl.H6_1
    rw [StepLib.read_rows_mem _ _ _ _ _ (row1 p) l o4 p rfl, pay13_apply, hX]
    refine tileRow_eq x 0 (by norm_num) x0 _ _ _ (row1 p) p l (hx0' p) (fun j k => hxm 0 (by norm_num) _ j k _ rfl)
      (fun j => hsq 0 (by norm_num) _ j _ rfl) ?_
    rw [StepLib.readAt_rows _ _ _ o4 p l (row1 p) rfl, B.h6.read_unread, hs3,
      rowSetL_empty 0 _ l (by simp only [blk]; omega), lanesBelow_zero]
  refine ⟨?_, ?_, ?_, ?_, ?_⟩
  · intro r k h
    dsimp only [stOf, St.ofVecs, kernelRun1]
    unfold kernelRun1.sl.H3_1
    by_cases hb : blk r = 1
    · obtain ⟨p, rfl⟩ := blkcase r hb
      rw [StepLib.read_rows_mem _ _ _ _ _ (row1 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun1]
    by_cases hb : blk r = 1
    · obtain ⟨p, rfl⟩ := blkcase r hb
      rw [StepLib.read_rows_mem _ _ _ _ _ (row1 p) 0 o2 p rfl, hX, pay10_apply]
      exact rowsq_eq x x0 p (row1 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun1]
    unfold kernelRun1.sl.H5_1
    by_cases hb : blk r = 1
    · obtain ⟨p, rfl⟩ := blkcase r hb
      rw [StepLib.read_cols_mem _ _ _ _ _ (row1 p) o3 p rfl, hX, pay11_apply]
      exact rowsq_eq x x0 p (row1 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun1]
    by_cases hb : blk r = 1
    · obtain ⟨p', rfl⟩ := blkcase r hb
      by_cases hh : p'.val < 256
      · obtain ⟨p, rfl⟩ : ∃ p : Fin 256, p' = lo p := ⟨⟨p'.val, hh⟩, rfl⟩
        have hlt : (row1 (lo p)).val < 768 ∨ 768 + 256 ≤ (row1 (lo p)).val :=
          Or.inl (by show 512 * 1 + p.val < 768; omega)
        rw [StepLib.read_rows_not_mem (m0 := 256) _ _ _ _ _ (row1 (lo p)) l o11b hlt]
        unfold kernelRun1.sl.H6_3
        rw [StepLib.read_rows_not_mem (m0 := 256) _ _ _ _ _ (row1 (lo p)) l o11b hlt]
        unfold kernelRun1.sl.H6_2
        rw [StepLib.read_rows_mem _ _ _ _ _ (row1 (lo p)) l o11a p rfl, pay33_apply, hr]
        refine diagLower_eq x 1 (by norm_num) x0 _ _ _ (row1 (lo p)) p l rfl hx0' hxm1 hsq3 ?_
        unfold kernelRun1.sl.v60
        rw [StepLib.readCov_rows _ _ _ o11a p l (row1 (lo p)) rfl]
        exact C1 _ (lo p) l
      · obtain ⟨p, rfl⟩ : ∃ p : Fin 256, p' = up p :=
          ⟨⟨p'.val - 256, by omega⟩, Fin.ext (by show p'.val = 256 + (p'.val - 256); omega)⟩
        have hrow : (row1 (up p)).val = 768 + p.val := by
          show 512 * 1 + (256 + p.val) = 768 + p.val
          omega
        rw [StepLib.read_rows_mem _ _ _ _ _ (row1 (up p)) l o11b p hrow, pay1_eq]
        unfold kernelRun1.sl.r_6
        rw [pay38_apply, hr]
        unfold kernelRun1.sl.v115
        rw [StepLib.readCov_rows _ _ _ o11b p l (row1 (up p)) hrow]
        unfold kernelRun1.sl.H6_3
        rw [StepLib.read_rows_mem _ _ _ _ _ (row1 (up p)) l o11b p hrow, pay36_apply]
        unfold kernelRun1.sl.r_5
        rw [pay35_apply, pay35_apply, hr]
        refine diagUpper_eq x 1 (by norm_num) x0 _ _ _ _ _ (row1 (up p)) p l rfl hx0' hxm1 hsq3 ?_ rfl rfl
        unfold kernelRun1.sl.v78
        rw [StepLib.readCov_rows _ _ _ o11b p l (row1 (up p)) hrow]
        unfold kernelRun1.sl.H6_2
        rw [StepLib.read_rows_not_mem (m0 := 256) _ _ _ _ _ (row1 (up p)) l o11a (Or.inr (by omega))]
        exact C1 _ (up p) l
    · have hmiss : r.val < 512 ∨ 1024 ≤ r.val := by simp only [blk] at hb; omega
      rw [StepLib.read_rows_not_mem (m0 := 256) _ _ _ _ _ r l o11b (by omega)]
      unfold kernelRun1.sl.H6_3
      rw [StepLib.read_rows_not_mem (m0 := 256) _ _ _ _ _ r l o11b (by omega)]
      unfold kernelRun1.sl.H6_2
      rw [StepLib.read_rows_not_mem (m0 := 256) _ _ _ _ _ r l o11a (by omega)]
      unfold kernelRun1.sl.H6_1
      rw [StepLib.read_rows_not_mem (m0 := 512) _ _ _ _ _ r l o4 (by omega), View.writes_nil, B.h6.read_unread, hs3, rowSetL_succ_of_ne 0 r l hb]
  · intro cc
    have := cc.isLt
    dsimp only [stOf, St.ofVecs, kernelRun1]
    have hsq8 : ∀ p : Fin 512, k0_pay8 (F := Ideal) x0 (ix2 p 0) = sqn x (row1 p) := by
      intro p
      rw [pay8_apply]
      exact rowsq_eq x x0 p (row1 p) (hx0' p)
    have M7 : ∀ (f : B.a7.view.ty.Contents (Elt Ideal)) (cc : Fin 4096), 512 ≤ cc.val →
        View.read (Elt Ideal) B.a7.view (B.a7.view.writes (Elt Ideal) f (kernelRun1.sl.H7_1 (F := Ideal) c (grid0.coords t0_1) B x0 s0 s4)) (ix2 0 cc)
          = View.read (Elt Ideal) B.a7.view f (ix2 0 cc) := by
      intro f cc h
      unfold kernelRun1.sl.H7_1
      rw [StepLib.read_cols_not_mem (m1 := 512) (o := 0) _ _ _ _ _ cc rfl (Or.inr (by omega)), View.writes_nil]
    by_cases h5 : cc.val < 512
    · rw [StepLib.read_cols_not_mem (m1 := 256) _ _ _ _ _ cc o12 (Or.inl h5)]
      unfold kernelRun1.sl.H7_1
      have hj : cc.val - 0 < 512 := by omega
      have hcj : cc.val = 0 + (⟨cc.val - 0, hj⟩ : Fin 512).val := by
        show cc.val = 0 + (cc.val - 0)
        omega
      rw [StepLib.read_cols_mem (o := 0) _ _ _ _ _ cc rfl ⟨cc.val - 0, hj⟩ hcj, pay14_apply, hX]
      refine tileCol_eq x 0 (by norm_num) x0 _ _ _ cc ⟨cc.val - 0, hj⟩ (by simp only [blk]; omega) hx0'
        (fun k => hxm 0 (by norm_num) _ _ k cc hcj) hsq8 (Eq.trans ?_ (hs4 cc))
      rw [StepLib.readAt_cols (o := 0) _ _ _ rfl ⟨cc.val - 0, hj⟩ cc hcj, B.h7.read_unread]
    · by_cases h6 : cc.val < 768
      · obtain ⟨q, rfl⟩ : ∃ q : Fin 256, cc = row1 (lo q) :=
          ⟨⟨cc.val - 512, by omega⟩, Fin.ext (by show cc.val = 512 * 1 + (cc.val - 512); omega)⟩
        rw [StepLib.read_cols_mem _ _ _ _ _ (row1 (lo q)) o12 q rfl, pay37_apply]
        refine (congrArg₂ min (?_ : _ = (⊤ : EReal)) (diagCol_eq x 1 (by norm_num) x0 _ _ _ (row1 (lo q)) q rfl hx0' hxm1 hsq2
          (fun p => by unfold kernelRun1.sl.r_4; rw [pay34_apply, hr]))).trans (min_eq_right le_top)
        rw [StepLib.readAt_cols _ _ _ o12 q (row1 (lo q)) rfl, M7 _ _ (by show 512 ≤ 512 * 1 + q.val; omega),
          B.h7.read_unread, hs4, colSetG_empty 0 _ (by simp only [blk]; omega), Finset.inf_empty]
      · have e : colSetG 1 cc = colSetG 0 cc := colSetG_succ_rest 0 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step2.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row2 (j : Fin 512) : Fin 4096 := ⟨512 * 2 + j.val, by omega⟩

theorem inv_step2 (c : Dev nD) (B : Ops)
    (hc1 : ¬cond1 (grid0.coords t0_2)) (hc2 : k0_cond2 (grid0.coords t0_2) = 1#1) (hc3 : k0_cond3 (grid0.coords t0_2) = 1#1) (hc4 : ¬k0_cond4 (grid0.coords t0_2) = 1#1) (hc5 : ¬k0_cond5 (grid0.coords t0_2) = 1#1) (hc6 : ¬k0_cond6 (grid0.coords t0_2) = 1#1) (hc7 : ¬k0_cond7 (grid0.coords t0_2) = 1#1) (hc8 : ¬k0_cond8 (grid0.coords t0_2) = 1#1) (hc9 : ¬k0_cond9 (grid0.coords t0_2) = 1#1)
    (x : Mat) (x0 : Vec Ideal S512x1024 .f32)
    (hx0 : ∀ (p : Fin 512) (k : Fin 1024), x0 (ix2 p k) = x ⟨512 * 2 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 1 (St.ofVecs s0 s1 s2 s3 s4)) :
    Inv x 2 (stOf (kernelRun2 (F := Ideal) c (grid0.coords t0_2) B hc1 hc2 hc3 hc4 hc5 hc6 hc7 hc8 hc9 x0 s0 s1 s2 s3 s4)) := by
  have o1 : k0_off1 (grid0.coords t0_2) = ![1024, 0] := by decide
  have o2 : k0_off2 (grid0.coords t0_2) = ![1024, 0] := by decide
  have o3 : k0_off3 (grid0.coords t0_2) = ![0, 1024] := by decide
  have hX := load_x0 B.a1 B.h1 x0
  have hs0 : ∀ (rr : Fin 4096) (k : Fin 1024), blk rr ≤ 1 → s0 (ix2 rr k) = MTWO * x rr k := hinv.xm2
  have hs1 : ∀ rr : Fin 4096, blk rr ≤ 1 → s1 (ix2 rr 0) = sqn x rr := hinv.sqr
  have hs2 : ∀ rr : Fin 4096, blk rr ≤ 1 → s2 (ix2 0 rr) = sqn x rr := hinv.sqc
  have hs3 : ∀ (rr : Fin 4096) (l : Fin 128), s3 (ix2 rr l) = (rowSetL 1 rr l).inf (T1 x rr) := hinv.racc
  have hs4 : ∀ cc : Fin 4096, s4 (ix2 0 cc) = (colSetG 1 cc).inf (fun r' => T2 x r' cc) := hinv.cacc
  have hx0' : ∀ (p : Fin 512) (k : Fin 1024), x0 (ix2 p k) = x (row2 p) k := hx0
  have blkcase : ∀ r : Fin 4096, blk r = 2 → ∃ p : Fin 512, r = row2 p := fun r hb =>
    ⟨⟨r.val - 1024, by have := r.isLt; simp only [blk] at hb; omega⟩, Fin.ext (by
      simp only [blk] at hb
      show r.val = 512 * 2 + (r.val - 1024)
      omega)⟩
  have o4 : k0_off4 (grid0.coords t0_2) = ![1024, 0] := by decide
  have o5 : k0_off5 (grid0.coords t0_2) = ![1024, 0] := by decide
  have o11a : k0_off11 (grid0.coords t0_2) 0#32 = ![1024, 0] := by decide
  have o11b : k0_off11 (grid0.coords t0_2) 256#32 = ![1280, 0] := by decide
  have o12 : k0_off12 (grid0.coords t0_2) = ![0, 1024] := by decide
  have hr : kernelRun2.sl.r (F := Ideal) c B x0 = x0 := by
    unfold kernelRun2.sl.r
    rw [hX, pay5_eq]
  have hxm1 : ∀ (j : Fin 512) (k : Fin 1024), kernelRun2.sl.r_1 (F := Ideal) c B x0 (ix2 j k) = MTWO * x (row2 j) k := by
    intro j k
    unfold kernelRun2.sl.r_1
    rw [hX, pay6_apply, hx0']
  have hsq2 : ∀ j : Fin 512, kernelRun2.sl.r_2 (F := Ideal) c B x0 (ix2 j 0) = sqn x (row2 j) := by
    intro j
    unfold kernelRun2.sl.r_2
    rw [hX, pay8_apply]
    exact rowsq_eq x x0 j (row2 j) (hx0' j)
  have hsq3 : ∀ j : Fin 512, kernelRun2.sl.r_3 (F := Ideal) c B x0 (ix2 0 j) = sqn x (row2 j) := by
    intro j
    unfold kernelRun2.sl.r_3
    rw [hX, pay9_apply]
    exact rowsq_eq x x0 j (row2 j) (hx0' j)
  have hxm : ∀ (o : ℕ) (ho : o + 512 ≤ 1024) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun2.sl.H3_1 (F := Ideal) c (grid0.coords t0_2) B x0)) (ix2 j k) = MTWO * x cj k := by
    intro o ho inb3 j k cj hcj
    rw [StepLib.readAt_rows _ _ _ rfl j k cj hcj]
    unfold kernelRun2.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 1024) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun2.sl.H5_1 (F := Ideal) c (grid0.coords t0_2) B x0)) (ix2 0 j) = sqn x cj := by
    intro o ho inb5 j cj hcj
    rw [StepLib.readAt_cols _ _ _ rfl j cj hcj]
    unfold kernelRun2.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun2.sl.H6_1 (F := Ideal) c (grid0.coords t0_2) B hc2 x0 s0 s2 s3)) (ix2 (row2 p) l)
        = (lanesBelow 1 l).inf (T1 x (row2 p)) := by
    intro f p l
    unfold kernelRun2.sl.H6_1
    rw [StepLib.read_rows_mem _ _ _ _ _ (row2 p) l o4 p rfl, pay13_apply, hX]
    refine tileRow_eq x 0 (by norm_num) x0 _ _ _ (row2 p) p l (hx0' p) (fun j k => hxm 0 (by norm_num) _ j k _ rfl)
      (fun j => hsq 0 (by norm_num) _ j _ rfl) ?_
    rw [StepLib.readAt_rows _ _ _ o4 p l (row2 p) rfl, B.h6.read_unread, hs3,
      rowSetL_empty 1 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun2.sl.H6_2 (F := Ideal) c (grid0.coords t0_2) B hc2 hc3 x0 s0 s2 s3)) (ix2 (row2 p) l)
        = (lanesBelow 2 l).inf (T1 x (row2 p)) := by
    intro f p l
    unfold kernelRun2.sl.H6_2
    rw [StepLib.read_rows_mem _ _ _ _ _ (row2 p) l o5 p rfl, pay16_apply, hX]
    refine tileRow_eq x 1 (by norm_num) x0 _ _ _ (row2 p) p l (hx0' p) (fun j k => hxm 512 (by norm_num) _ j k _ rfl)
      (fun j => hsq 512 (by norm_num) _ j _ rfl) ?_
    unfold kernelRun2.sl.v133
    rw [StepLib.readCov_rows _ _ _ o5 p l (row2 p) rfl]
    exact C1 _ p l
  refine ⟨?_, ?_, ?_, ?_, ?_⟩
  · intro r k h
    dsimp only [stOf, St.ofVecs, kernelRun2]
    unfold kernelRun2.sl.H3_1
    by_cases hb : blk r = 2
    · obtain ⟨p, rfl⟩ := blkcase r hb
      rw [StepLib.read_rows_mem _ _ _ _ _ (row2 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun2]
    by_cases hb : blk r = 2
    · obtain ⟨p, rfl⟩ := blkcase r hb
      rw [StepLib.read_rows_mem _ _ _ _ _ (row2 p) 0 o2 p rfl, hX, pay10_apply]
      exact rowsq_eq x x0 p (row2 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun2]
    unfold kernelRun2.sl.H5_1
    by_cases hb : blk r = 2
    · obtain ⟨p, rfl⟩ := blkcase r hb
      rw [StepLib.read_cols_mem _ _ _ _ _ (row2 p) o3 p rfl, hX, pay11_apply]
      exact rowsq_eq x x0 p (row2 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun2]
    by_cases hb : blk r = 2
    · obtain ⟨p', rfl⟩ := blkcase r hb
      by_cases hh : p'.val < 256
      · obtain ⟨p, rfl⟩ : ∃ p : Fin 256, p' = lo p := ⟨⟨p'.val, hh⟩, rfl⟩
        have hlt : (row2 (lo p)).val < 1280 ∨ 1280 + 256 ≤ (row2 (lo p)).val :=
          Or.inl (by show 512 * 2 + p.val < 1280; omega)
        rw [StepLib.read_rows_not_mem (m0 := 256) _ _ _ _ _ (row2 (lo p)) l o11b hlt]
        unfold kernelRun2.sl.H6_4
        rw [StepLib.read_rows_not_mem (m0 := 256) _ _ _ _ _ (row2 (lo p)) l o11b hlt]
        unfold kernelRun2.sl.H6_3
        rw [StepLib.read_rows_mem _ _ _ _ _ (row2 (lo p)) l o11a p rfl, pay33_apply, hr]
        refine diagLower_eq x 2 (by norm_num) x0 _ _ _ (row2 (lo p)) p l rfl hx0' hxm1 hsq3 ?_
        unfold kernelRun2.sl.v60
        rw [StepLib.readCov_rows _ _ _ o11a p l (row2 (lo p)) rfl]
        exact C2 _ (lo p) l
      · obtain ⟨p, rfl⟩ : ∃ p : Fin 256, p' = up p :=
          ⟨⟨p'.val - 256, by omega⟩, Fin.ext (by show p'.val = 256 + (p'.val - 256); omega)⟩
        have hrow : (row2 (up p)).val = 1280 + p.val := by
          show 512 * 2 + (256 + p.val) = 1280 + p.val
          omega
        rw [StepLib.read_rows_mem _ _ _ _ _ (row2 (up p)) l o11b p hrow, pay1_eq]
        unfold kernelRun2.sl.r_6
        rw [pay38_apply, hr]
        unfold kernelRun2.sl.v115
        rw [StepLib.readCov_rows _ _ _ o11b p l (row2 (up p)) hrow]
        unfold kernelRun2.sl.H6_4
        rw [StepLib.read_rows_mem _ _ _ _ _ (row2 (up p)) l o11b p hrow, pay36_apply]
        unfold kernelRun2.sl.r_5
        rw [pay35_apply, pay35_apply, hr]
        refine diagUpper_eq x 2 (by norm_num) x0 _ _ _ _ _ (row2 (up p)) p l rfl hx0' hxm1 hsq3 ?_ rfl rfl
        unfold kernelRun2.sl.v78
        rw [StepLib.readCov_rows _ _ _ o11b p l (row2 (up p)) hrow]
        unfold kernelRun2.sl.H6_3
        rw [StepLib.read_rows_not_mem (m0 := 256) _ _ _ _ _ (row2 (up p)) l o11a (Or.inr (by omega))]
        exact C2 _ (up p) l
    · have hmiss : r.val < 1024 ∨ 1536 ≤ r.val := by simp only [blk] at hb; omega
      rw [StepLib.read_rows_not_mem (m0 := 256) _ _ _ _ _ r l o11b (by omega)]
      unfold kernelRun2.sl.H6_4
      rw [StepLib.read_rows_not_mem (m0 := 256) _ _ _ _ _ r l o11b (by omega)]
      unfold kernelRun2.sl.H6_3
      rw [StepLib.read_rows_not_mem (m0 := 256) _ _ _ _ _ r l o11a (by omega)]
      unfold kernelRun2.sl.H6_2
      rw [StepLib.read_rows_not_mem (m0 := 512) _ _ _ _ _ r l o5 (by omega)]
      unfold kernelRun2.sl.H6_1
      rw [StepLib.read_rows_not_mem (m0 := 512) _ _ _ _ _ r l o4 (by omega), View.writes_nil, B.h6.read_unread, hs3, rowSetL_succ_of_ne 1 r l hb]
  · intro cc
    have := cc.isLt
    dsimp only [stOf, St.ofVecs, kernelRun2]
    have hsq8 : ∀ p : Fin 512, k0_pay8 (F := Ideal) x0 (ix2 p 0) = sqn x (row2 p) := by
      intro p
      rw [pay8_apply]
      exact rowsq_eq x x0 p (row2 p) (hx0' p)
    have M7 : ∀ (f : B.a7.view.ty.Contents (Elt Ideal)) (cc : Fin 4096), 1024 ≤ cc.val →
        View.read (Elt Ideal) B.a7.view (B.a7.view.writes (Elt Ideal) f (kernelRun2.sl.H7_2 (F := Ideal) c (grid0.coords t0_2) B x0 s0 s4)) (ix2 0 cc)
          = View.read (Elt Ideal) B.a7.view f (ix2 0 cc) := by
      intro f cc h
      unfold kernelRun2.sl.H7_2
      rw [StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 1024
    · rw [StepLib.read_cols_not_mem (m1 := 256) _ _ _ _ _ cc o12 (Or.inl h5)]
      unfold kernelRun2.sl.H7_2
      by_cases hb1 : 512 ≤ cc.val
      · have hj : cc.val - 512 < 512 := by omega
        have hcj : cc.val = 512 + (⟨cc.val - 512, hj⟩ : Fin 512).val := by
          show cc.val = 512 + (cc.val - 512)
          omega
        rw [StepLib.read_cols_mem (o := 512) _ _ _ _ _ cc rfl ⟨cc.val - 512, hj⟩ hcj, pay17_apply, hX]
        refine tileCol_eq x 1 (by norm_num) x0 _ _ _ cc ⟨cc.val - 512, hj⟩ (by simp only [blk]; omega) hx0'
          (fun k => hxm 512 (by norm_num) _ _ k cc hcj) hsq8 (Eq.trans ?_ (hs4 cc))
        unfold kernelRun2.sl.v148
        rw [StepLib.readAt_cols (o := 512) _ _ _ rfl ⟨cc.val - 512, hj⟩ cc hcj, B.h7.read_unread]
      · rw [StepLib.read_cols_not_mem (m1 := 512) (o := 512) _ _ _ _ _ cc rfl (Or.inl (by omega))]
        have hj : cc.val - 0 < 512 := by omega
        have hcj : cc.val = 0 + (⟨cc.val - 0, hj⟩ : Fin 512).val := by
          show cc.val = 0 + (cc.val - 0)
          omega
        rw [StepLib.read_cols_mem (o := 0) _ _ _ _ _ cc rfl ⟨cc.val - 0, hj⟩ hcj, pay14_apply, hX]
        refine tileCol_eq x 1 (by norm_num) x0 _ _ _ cc ⟨cc.val - 0, hj⟩ (by simp only [blk]; omega) hx0'
          (fun k => hxm 0 (by norm_num) _ _ k cc hcj) hsq8 (Eq.trans ?_ (hs4 cc))
        rw [StepLib.readAt_cols (o := 0) _ _ _ rfl ⟨cc.val - 0, hj⟩ cc hcj, B.h7.read_unread]
    · by_cases h6 : cc.val < 1280
      · obtain ⟨q, rfl⟩ : ∃ q : Fin 256, cc = row2 (lo q) :=
          ⟨⟨cc.val - 1024, by omega⟩, Fin.ext (by show cc.val = 512 * 2 + (cc.val - 1024); omega)⟩
        rw [StepLib.read_cols_mem _ _ _ _ _ (row2 (lo q)) o12 q rfl, pay37_apply]
        refine (congrArg₂ min (?_ : _ = (⊤ : EReal)) (diagCol_eq x 2 (by norm_num) x0 _ _ _ (row2 (lo q)) q rfl hx0' hxm1 hsq2
          (fun p => by unfold kernelRun2.sl.r_4; rw [pay34_apply, hr]))).trans (min_eq_right le_top)
        rw [StepLib.readAt_cols _ _ _ o12 q (row2 (lo q)) rfl, M7 _ _ (by show 1024 ≤ 512 * 2 + q.val; omega),
          B.h7.read_unread, hs4, colSetG_empty 1 _ (by simp only [blk]; omega), Finset.inf_empty]
      · have e : colSetG 2 cc = colSetG 1 cc := colSetG_succ_rest 1 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step3.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row3 (j : Fin 512) : Fin 4096 := ⟨512 * 3 + j.val, by omega⟩

theorem inv_step3 (c : Dev nD) (B : Ops)
    (hc1 : ¬cond1 (grid0.coords t0_3)) (hc2 : k0_cond2 (grid0.coords t0_3) = 1#1) (hc3 : k0_cond3 (grid0.coords t0_3) = 1#1) (hc4 : k0_cond4 (grid0.coords t0_3) = 1#1) (hc5 : ¬k0_cond5 (grid0.coords t0_3) = 1#1) (hc6 : ¬k0_cond6 (grid0.coords t0_3) = 1#1) (hc7 : ¬k0_cond7 (grid0.coords t0_3) = 1#1) (hc8 : ¬k0_cond8 (grid0.coords t0_3) = 1#1) (hc9 : ¬k0_cond9 (grid0.coords t0_3) = 1#1)
    (x : Mat) (x0 : Vec Ideal S512x1024 .f32)
    (hx0 : ∀ (p : Fin 512) (k : Fin 1024), x0 (ix2 p k) = x ⟨512 * 3 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 2 (St.ofVecs s0 s1 s2 s3 s4)) :
    Inv x 3 (stOf (kernelRun3 (F := Ideal) c (grid0.coords t0_3) B hc1 hc2 hc3 hc4 hc5 hc6 hc7 hc8 hc9 x0 s0 s1 s2 s3 s4)) := by
  have o1 : k0_off1 (grid0.coords t0_3) = ![1536, 0] := by decide
  have o2 : k0_off2 (grid0.coords t0_3) = ![1536, 0] := by decide
  have o3 : k0_off3 (grid0.coords t0_3) = ![0, 1536] := by decide
  have hX := load_x0 B.a1 B.h1 x0
  have hs0 : ∀ (rr : Fin 4096) (k : Fin 1024), blk rr ≤ 2 → s0 (ix2 rr k) = MTWO * x rr k := hinv.xm2
  have hs1 : ∀ rr : Fin 4096, blk rr ≤ 2 → s1 (ix2 rr 0) = sqn x rr := hinv.sqr
  have hs2 : ∀ rr : Fin 4096, blk rr ≤ 2 → s2 (ix2 0 rr) = sqn x rr := hinv.sqc
  have hs3 : ∀ (rr : Fin 4096) (l : Fin 128), s3 (ix2 rr l) = (rowSetL 2 rr l).inf (T1 x rr) := hinv.racc
  have hs4 : ∀ cc : Fin 4096, s4 (ix2 0 cc) = (colSetG 2 cc).inf (fun r' => T2 x r' cc) := hinv.cacc
  have hx0' : ∀ (p : Fin 512) (k : Fin 1024), x0 (ix2 p k) = x (row3 p) k := hx0
  have blkcase : ∀ r : Fin 4096, blk r = 3 → ∃ p : Fin 512, r = row3 p := fun r hb =>
    ⟨⟨r.val - 1536, by have := r.isLt; simp only [blk] at hb; omega⟩, Fin.ext (by
      simp only [blk] at hb
      show r.val = 512 * 3 + (r.val - 1536)
      omega)⟩
  have o4 : k0_off4 (grid0.coords t0_3) = ![1536, 0] := by decide
  have o5 : k0_off5 (grid0.coords t0_3) = ![1536, 0] := by decide
  have o6 : k0_off6 (grid0.coords t0_3) = ![1536, 0] := by decide
  have o11a : k0_off11 (grid0.coords t0_3) 0#32 = ![1536, 0] := by decide
  have o11b : k0_off11 (grid0.coords t0_3) 256#32 = ![1792, 0] := by decide
  have o12 : k0_off12 (grid0.coords t0_3) = ![0, 1536] := by decide
  have hr : kernelRun3.sl.r (F := Ideal) c B x0 = x0 := by
    unfold kernelRun3.sl.r
    rw [hX, pay5_eq]
  have hxm1 : ∀ (j : Fin 512) (k : Fin 1024), kernelRun3.sl.r_1 (F := Ideal) c B x0 (ix2 j k) = MTWO * x (row3 j) k := by
    intro j k
    unfold kernelRun3.sl.r_1
    rw [hX, pay6_apply, hx0']
  have hsq2 : ∀ j : Fin 512, kernelRun3.sl.r_2 (F := Ideal) c B x0 (ix2 j 0) = sqn x (row3 j) := by
    intro j
    unfold kernelRun3.sl.r_2
    rw [hX, pay8_apply]
    exact rowsq_eq x x0 j (row3 j) (hx0' j)
  have hsq3 : ∀ j : Fin 512, kernelRun3.sl.r_3 (F := Ideal) c B x0 (ix2 0 j) = sqn x (row3 j) := by
    intro j
    unfold kernelRun3.sl.r_3
    rw [hX, pay9_apply]
    exact rowsq_eq x x0 j (row3 j) (hx0' j)
  have hxm : ∀ (o : ℕ) (ho : o + 512 ≤ 1536) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun3.sl.H3_1 (F := Ideal) c (grid0.coords t0_3) B x0)) (ix2 j k) = MTWO * x cj k := by
    intro o ho inb3 j k cj hcj
    rw [StepLib.readAt_rows _ _ _ rfl j k cj hcj]
    unfold kernelRun3.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 1536) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun3.sl.H5_1 (F := Ideal) c (grid0.coords t0_3) B x0)) (ix2 0 j) = sqn x cj := by
    intro o ho inb5 j cj hcj
    rw [StepLib.readAt_cols _ _ _ rfl j cj hcj]
    unfold kernelRun3.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun3.sl.H6_1 (F := Ideal) c (grid0.coords t0_3) B hc2 x0 s0 s2 s3)) (ix2 (row3 p) l)
        = (lanesBelow 1 l).inf (T1 x (row3 p)) := by
    intro f p l
    unfold kernelRun3.sl.H6_1
    rw [StepLib.read_rows_mem _ _ _ _ _ (row3 p) l o4 p rfl, pay13_apply, hX]
    refine tileRow_eq x 0 (by norm_num) x0 _ _ _ (row3 p) p l (hx0' p) (fun j k => hxm 0 (by norm_num) _ j k _ rfl)
      (fun j => hsq 0 (by norm_num) _ j _ rfl) ?_
    rw [StepLib.readAt_rows _ _ _ o4 p l (row3 p) rfl, B.h6.read_unread, hs3,
      rowSetL_empty 2 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun3.sl.H6_2 (F := Ideal) c (grid0.coords t0_3) B hc2 hc3 x0 s0 s2 s3)) (ix2 (row3 p) l)
        = (lanesBelow 2 l).inf (T1 x (row3 p)) := by
    intro f p l
    unfold kernelRun3.sl.H6_2
    rw [StepLib.read_rows_mem _ _ _ _ _ (row3 p) l o5 p rfl, pay16_apply, hX]
    refine tileRow_eq x 1 (by norm_num) x0 _ _ _ (row3 p) p l (hx0' p) (fun j k => hxm 512 (by norm_num) _ j k _ rfl)
      (fun j => hsq 512 (by norm_num) _ j _ rfl) ?_
    unfold kernelRun3.sl.v133
    rw [StepLib.readCov_rows _ _ _ o5 p l (row3 p) rfl]
    exact C1 _ p l
  have C3 : ∀ (f : B.a6.view.ty.Contents (Elt Ideal)) (p : Fin 512) (l : Fin 128),
      View.read (Elt Ideal) B.a6.view (B.a6.view.writes (Elt Ideal) f (kernelRun3.sl.H6_3 (F := Ideal) c (grid0.coords t0_3) B hc2 hc3 hc4 x0 s0 s2 s3)) (ix2 (row3 p) l)
        = (lanesBelow 3 l).inf (T1 x (row3 p)) := by
    intro f p l
    unfold kernelRun3.sl.H6_3
    rw [StepLib.read_rows_mem _ _ _ _ _ (row3 p) l o6 p rfl, pay19_apply, hX]
    refine tileRow_eq x 2 (by norm_num) x0 _ _ _ (row3 p) p l (hx0' p) (fun j k => hxm 1024 (by norm_num) _ j k _ rfl)
      (fun j => hsq 1024 (by norm_num) _ j _ rfl) ?_
    unfold kernelRun3.sl.v133_1
    rw [StepLib.readCov_rows _ _ _ o6 p l (row3 p) rfl]
    exact C2 _ p l
  refine ⟨?_, ?_, ?_, ?_, ?_⟩
  · intro r k h
    dsimp only [stOf, St.ofVecs, kernelRun3]
    unfold kernelRun3.sl.H3_1
    by_cases hb : blk r = 3
    · obtain ⟨p, rfl⟩ := blkcase r hb
      rw [StepLib.read_rows_mem _ _ _ _ _ (row3 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun3]
    by_cases hb : blk r = 3
    · obtain ⟨p, rfl⟩ := blkcase r hb
      rw [StepLib.read_rows_mem _ _ _ _ _ (row3 p) 0 o2 p rfl, hX, pay10_apply]
      exact rowsq_eq x x0 p (row3 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun3]
    unfold kernelRun3.sl.H5_1
    by_cases hb : blk r = 3
    · obtain ⟨p, rfl⟩ := blkcase r hb
      rw [StepLib.read_cols_mem _ _ _ _ _ (row3 p) o3 p rfl, hX, pay11_apply]
      exact rowsq_eq x x0 p (row3 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun3]
    by_cases hb : blk r = 3
    · obtain ⟨p', rfl⟩ := blkcase r hb
      by_cases hh : p'.val < 256
      · obtain ⟨p, rfl⟩ : ∃ p : Fin 256, p' = lo p := ⟨⟨p'.val, hh⟩, rfl⟩
        have hlt : (row3 (lo p)).val < 1792 ∨ 1792 + 256 ≤ (row3 (lo p)).val :=
          Or.inl (by show 512 * 3 + p.val < 1792; omega)
        rw [StepLib.read_rows_not_mem (m0 := 256) _ _ _ _ _ (row3 (lo p)) l o11b hlt]
        unfold kernelRun3.sl.H6_5
        rw [StepLib.read_rows_not_mem (m0 := 256) _ _ _ _ _ (row3 (lo p)) l o11b hlt]
        unfold kernelRun3.sl.H6_4
        rw [StepLib.read_rows_mem _ _ _ _ _ (row3 (lo p)) l o11a p rfl, pay33_apply, hr]
        refine diagLower_eq x 3 (by norm_num) x0 _ _ _ (row3 (lo p)) p l rfl hx0' hxm1 hsq3 ?_
        unfold kernelRun3.sl.v60
        rw [StepLib.readCov_rows _ _ _ o11a p l (row3 (lo p)) rfl]
        exact C3 _ (lo p) l
      · obtain ⟨p, rfl⟩ : ∃ p : Fin 256, p' = up p :=
          ⟨⟨p'.val - 256, by omega⟩, Fin.ext (by show p'.val = 256 + (p'.val - 256); omega)⟩
        have hrow : (row3 (up p)).val = 1792 + p.val := by
          show 512 * 3 + (256 + p.val) = 1792 + p.val
          omega
        rw [StepLib.read_rows_mem _ _ _ _ _ (row3 (up p)) l o11b p hrow, pay1_eq]
        unfold kernelRun3.sl.r_6
        rw [pay38_apply, hr]
        unfold kernelRun3.sl.v115
        rw [StepLib.readCov_rows _ _ _ o11b p l (row3 (up p)) hrow]
        unfold kernelRun3.sl.H6_5
        rw [StepLib.read_rows_mem _ _ _ _ _ (row3 (up p)) l o11b p hrow, pay36_apply]
        unfold kernelRun3.sl.r_5
        rw [pay35_apply, pay35_apply, hr]
        refine diagUpper_eq x 3 (by norm_num) x0 _ _ _ _ _ (row3 (up p)) p l rfl hx0' hxm1 hsq3 ?_ rfl rfl
        unfold kernelRun3.sl.v78
        rw [StepLib.readCov_rows _ _ _ o11b p l (row3 (up p)) hrow]
        unfold kernelRun3.sl.H6_4
        rw [StepLib.read_rows_not_mem (m0 := 256) _ _ _ _ _ (row3 (up p)) l o11a (Or.inr (by omega))]
        exact C3 _ (up p) l
    · have hmiss : r.val < 1536 ∨ 2048 ≤ r.val := by simp only [blk] at hb; omega
      rw [StepLib.read_rows_not_mem (m0 := 256) _ _ _ _ _ r l o11b (by omega)]
      unfold kernelRun3.sl.H6_5
      rw [StepLib.read_rows_not_mem (m0 := 256) _ _ _ _ _ r l o11b (by omega)]
      unfold kernelRun3.sl.H6_4
      rw [StepLib.read_rows_not_mem (m0 := 256) _ _ _ _ _ r l o11a (by omega)]
      unfold kernelRun3.sl.H6_3
      rw [StepLib.read_rows_not_mem (m0 := 512) _ _ _ _ _ r l o6 (by omega)]
      unfold kernelRun3.sl.H6_2
      rw [StepLib.read_rows_not_mem (m0 := 512) _ _ _ _ _ r l o5 (by omega)]
      unfold kernelRun3.sl.H6_1
      rw [StepLib.read_rows_not_mem (m0 := 512) _ _ _ _ _ r l o4 (by omega), View.writes_nil, B.h6.read_unread, hs3, rowSetL_succ_of_ne 2 r l hb]
  · intro cc
    have := cc.isLt
    dsimp only [stOf, St.ofVecs, kernelRun3]
    have hsq8 : ∀ p : Fin 512, k0_pay8 (F := Ideal) x0 (ix2 p 0) = sqn x (row3 p) := by
      intro p
      rw [pay8_apply]
      exact rowsq_eq x x0 p (row3 p) (hx0' p)
    have M7 : ∀ (f : B.a7.view.ty.Contents (Elt Ideal)) (cc : Fin 4096), 1536 ≤ cc.val →
        View.read (Elt Ideal) B.a7.view (B.a7.view.writes (Elt Ideal) f (kernelRun3.sl.H7_3 (F := Ideal) c (grid0.coords t0_3) B x0 s0 s4)) (ix2 0 cc)
          = View.read (Elt Ideal) B.a7.view f (ix2 0 cc) := by
      intro f cc h
      unfold kernelRun3.sl.H7_3
      rw [StepLib.read_cols_not_mem (m1 := 512) (o := 1024) _ _ _ _ _ cc rfl (Or.inr (by omega)),
        StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 1536
    · rw [StepLib.read_cols_not_mem (m1 := 256) _ _ _ _ _ cc o12 (Or.inl h5)]
      unfold kernelRun3.sl.H7_3
      by_cases hb2 : 1024 ≤ cc.val
      · have hj : cc.val - 1024 < 512 := by omega
        have hcj : cc.val = 1024 + (⟨cc.val - 1024, hj⟩ : Fin 512).val := by
          show cc.val = 1024 + (cc.val - 1024)
          omega
        rw [StepLib.read_cols_mem (o := 1024) _ _ _ _ _ cc rfl ⟨cc.val - 1024, hj⟩ hcj, pay20_apply, hX]
        refine tileCol_eq x 2 (by norm_num) x0 _ _ _ cc ⟨cc.val - 1024, hj⟩ (by simp only [blk]; omega) hx0'
          (fun k => hxm 1024 (by norm_num) _ _ k cc hcj) hsq8 (Eq.trans ?_ (hs4 cc))
        unfold kernelRun3.sl.v148_1
        rw [StepLib.readAt_cols (o := 1024) _ _ _ rfl ⟨cc.val - 1024, hj⟩ cc hcj, B.h7.read_unread]
      · rw [StepLib.read_cols_not_mem (m1 := 512) (o := 1024) _ _ _ _ _ cc rfl (Or.inl (by omega))]
        by_cases hb1 : 512 ≤ cc.val
        · have hj : cc.val - 512 < 512 := by omega
          have hcj : cc.val = 512 + (⟨cc.val - 512, hj⟩ : Fin 512).val := by
            show cc.val = 512 + (cc.val - 512)
            omega
          rw [StepLib.read_cols_mem (o := 512) _ _ _ _ _ cc rfl ⟨cc.val - 512, hj⟩ hcj, pay17_apply, hX]
          refine tileCol_eq x 2 (by norm_num) x0 _ _ _ cc ⟨cc.val - 512, hj⟩ (by simp only [blk]; omega) hx0'
            (fun k => hxm 512 (by norm_num) _ _ k cc hcj) hsq8 (Eq.trans ?_ (hs4 cc))
          unfold kernelRun3.sl.v148
          rw [StepLib.readAt_cols (o := 512) _ _ _ rfl ⟨cc.val - 512, hj⟩ cc hcj, B.h7.read_unread]
        · rw [StepLib.read_cols_not_mem (m1 := 512) (o := 512) _ _ _ _ _ cc rfl (Or.inl (by omega))]
          have hj : cc.val - 0 < 512 := by omega
          have hcj : cc.val = 0 + (⟨cc.val - 0, hj⟩ : Fin 512).val := by
            show cc.val = 0 + (cc.val - 0)
            omega
          rw [StepLib.read_cols_mem (o := 0) _ _ _ _ _ cc rfl ⟨cc.val - 0, hj⟩ hcj, pay14_apply, hX]
          refine tileCol_eq x 2 (by norm_num) x0 _ _ _ cc ⟨cc.val - 0, hj⟩ (by simp only [blk]; omega) hx0'
            (fun k => hxm 0 (by norm_num) _ _ k cc hcj) hsq8 (Eq.trans ?_ (hs4 cc))
          rw [StepLib.readAt_cols (o := 0) _ _ _ rfl ⟨cc.val - 0, hj⟩ cc hcj, B.h7.read_unread]
    · by_cases h6 : cc.val < 1792
      · obtain ⟨q, rfl⟩ : ∃ q : Fin 256, cc = row3 (lo q) :=
          ⟨⟨cc.val - 1536, by omega⟩, Fin.ext (by show cc.val = 512 * 3 + (cc.val - 1536); omega)⟩
        rw [StepLib.read_cols_mem _ _ _ _ _ (row3 (lo q)) o12 q rfl, pay37_apply]
        refine (congrArg₂ min (?_ : _ = (⊤ : EReal)) (diagCol_eq x 3 (by norm_num) x0 _ _ _ (row3 (lo q)) q rfl hx0' hxm1 hsq2
          (fun p => by unfold kernelRun3.sl.r_4; rw [pay34_apply, hr]))).trans (min_eq_right le_top)
        rw [StepLib.readAt_cols _ _ _ o12 q (row3 (lo q)) rfl, M7 _ _ (by show 1536 ≤ 512 * 3 + q.val; omega),
          B.h7.read_unread, hs4, colSetG_empty 2 _ (by simp only [blk]; omega), Finset.inf_empty]
      · have e : colSetG 3 cc = colSetG 2 cc := colSetG_succ_rest 2 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step4.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row4 (j : Fin 512) : Fin 4096 := ⟨512 * 4 + j.val, by omega⟩

theorem inv_step4 (c : Dev nD) (B : Ops)
    (hc1 : ¬cond1 (grid0.coords t0_4)) (hc2 : k0_cond2 (grid0.coords t0_4) = 1#1) (hc3 : k0_cond3 (grid0.coords t0_4) = 1#1) (hc4 : k0_cond4 (grid0.coords t0_4) = 1#1) (hc5 : k0_cond5 (grid0.coords t0_4) = 1#1) (hc6 : ¬k0_cond6 (grid0.coords t0_4) = 1#1) (hc7 : ¬k0_cond7 (grid0.coords t0_4) = 1#1) (hc8 : ¬k0_cond8 (grid0.coords t0_4) = 1#1) (hc9 : ¬k0_cond9 (grid0.coords t0_4) = 1#1)
    (x : Mat) (x0 : Vec Ideal S512x1024 .f32)
    (hx0 : ∀ (p : Fin 512) (k : Fin 1024), x0 (ix2 p k) = x ⟨512 * 4 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 3 (St.ofVecs s0 s1 s2 s3 s4)) :
    Inv x 4 (stOf (kernelRun4 (F := Ideal) c (grid0.coords t0_4) B hc1 hc2 hc3 hc4 hc5 hc6 hc7 hc8 hc9 x0 s0 s1 s2 s3 s4)) := by
  have o1 : k0_off1 (grid0.coords t0_4) = ![2048, 0] := by decide
  have o2 : k0_off2 (grid0.coords t0_4) = ![2048, 0] := by decide
  have o3 : k0_off3 (grid0.coords t0_4) = ![0, 2048] := by decide
  have hX := load_x0 B.a1 B.h1 x0
  have hs0 : ∀ (rr : Fin 4096) (k : Fin 1024), blk rr ≤ 3 → s0 (ix2 rr k) = MTWO * x rr k := hinv.xm2
  have hs1 : ∀ rr : Fin 4096, blk rr ≤ 3 → s1 (ix2 rr 0) = sqn x rr := hinv.sqr
  have hs2 : ∀ rr : Fin 4096, blk rr ≤ 3 → s2 (ix2 0 rr) = sqn x rr := hinv.sqc
  have hs3 : ∀ (rr : Fin 4096) (l : Fin 128), s3 (ix2 rr l) = (rowSetL 3 rr l).inf (T1 x rr) := hinv.racc
  have hs4 : ∀ cc : Fin 4096, s4 (ix2 0 cc) = (colSetG 3 cc).inf (fun r' => T2 x r' cc) := hinv.cacc
  have hx0' : ∀ (p : Fin 512) (k : Fin 1024), x0 (ix2 p k) = x (row4 p) k := hx0
  have blkcase : ∀ r : Fin 4096, blk r = 4 → ∃ p : Fin 512, r = row4 p := fun r hb =>
    ⟨⟨r.val - 2048, by have := r.isLt; simp only [blk] at hb; omega⟩, Fin.ext (by
      simp only [blk] at hb
      show r.val = 512 * 4 + (r.val - 2048)
      omega)⟩
  have o4 : k0_off4 (grid0.coords t0_4) = ![2048, 0] := by decide
  have o5 : k0_off5 (grid0.coords t0_4) = ![2048, 0] := by decide
  have o6 : k0_off6 (grid0.coords t0_4) = ![2048, 0] := by decide
  have o7 : k0_off7 (grid0.coords t0_4) = ![2048, 0] := by decide
  have o11a : k0_off11 (grid0.coords t0_4) 0#32 = ![2048, 0] := by decide
  have o11b : k0_off11 (grid0.coords t0_4) 256#32 = ![2304, 0] := by decide
  have o12 : k0_off12 (grid0.coords t0_4) = ![0, 2048] := by decide
  have hr : kernelRun4.sl.r (F := Ideal) c B x0 = x0 := by
    unfold kernelRun4.sl.r
    rw [hX, pay5_eq]
  have hxm1 : ∀ (j : Fin 512) (k : Fin 1024), kernelRun4.sl.r_1 (F := Ideal) c B x0 (ix2 j k) = MTWO * x (row4 j) k := by
    intro j k
    unfold kernelRun4.sl.r_1
    rw [hX, pay6_apply, hx0']
  have hsq2 : ∀ j : Fin 512, kernelRun4.sl.r_2 (F := Ideal) c B x0 (ix2 j 0) = sqn x (row4 j) := by
    intro j
    unfold kernelRun4.sl.r_2
    rw [hX, pay8_apply]
    exact rowsq_eq x x0 j (row4 j) (hx0' j)
  have hsq3 : ∀ j : Fin 512, kernelRun4.sl.r_3 (F := Ideal) c B x0 (ix2 0 j) = sqn x (row4 j) := by
    intro j
    unfold kernelRun4.sl.r_3
    rw [hX, pay9_apply]
    exact rowsq_eq x x0 j (row4 j) (hx0' j)
  have hxm : ∀ (o : ℕ) (ho : o + 512 ≤ 2048) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun4.sl.H3_1 (F := Ideal) c (grid0.coords t0_4) B x0)) (ix2 j k) = MTWO * x cj k := by
    intro o ho inb3 j k cj hcj
    rw [StepLib.readAt_rows _ _ _ rfl j k cj hcj]
    unfold kernelRun4.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 2048) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun4.sl.H5_1 (F := Ideal) c (grid0.coords t0_4) B x0)) (ix2 0 j) = sqn x cj := by
    intro o ho inb5 j cj hcj
    rw [StepLib.readAt_cols _ _ _ rfl j cj hcj]
    unfold kernelRun4.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun4.sl.H6_1 (F := Ideal) c (grid0.coords t0_4) B hc2 x0 s0 s2 s3)) (ix2 (row4 p) l)
        = (lanesBelow 1 l).inf (T1 x (row4 p)) := by
    intro f p l
    unfold kernelRun4.sl.H6_1
    rw [StepLib.read_rows_mem _ _ _ _ _ (row4 p) l o4 p rfl, pay13_apply, hX]
    refine tileRow_eq x 0 (by norm_num) x0 _ _ _ (row4 p) p l (hx0' p) (fun j k => hxm 0 (by norm_num) _ j k _ rfl)
      (fun j => hsq 0 (by norm_num) _ j _ rfl) ?_
    rw [StepLib.readAt_rows _ _ _ o4 p l (row4 p) rfl, B.h6.read_unread, hs3,
      rowSetL_empty 3 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun4.sl.H6_2 (F := Ideal) c (grid0.coords t0_4) B hc2 hc3 x0 s0 s2 s3)) (ix2 (row4 p) l)
        = (lanesBelow 2 l).inf (T1 x (row4 p)) := by
    intro f p l
    unfold kernelRun4.sl.H6_2
    rw [StepLib.read_rows_mem _ _ _ _ _ (row4 p) l o5 p rfl, pay16_apply, hX]
    refine tileRow_eq x 1 (by norm_num) x0 _ _ _ (row4 p) p l (hx0' p) (fun j k => hxm 512 (by norm_num) _ j k _ rfl)
      (fun j => hsq 512 (by norm_num) _ j _ rfl) ?_
    unfold kernelRun4.sl.v133
    rw [StepLib.readCov_rows _ _ _ o5 p l (row4 p) rfl]
    exact C1 _ p l
  have C3 : ∀ (f : B.a6.view.ty.Contents (Elt Ideal)) (p : Fin 512) (l : Fin 128),
      View.read (Elt Ideal) B.a6.view (B.a6.view.writes (Elt Ideal) f (kernelRun4.sl.H6_3 (F := Ideal) c (grid0.coords t0_4) B hc2 hc3 hc4 x0 s0 s2 s3)) (ix2 (row4 p) l)
        = (lanesBelow 3 l).inf (T1 x (row4 p)) := by
    intro f p l
    unfold kernelRun4.sl.H6_3
    rw [StepLib.read_rows_mem _ _ _ _ _ (row4 p) l o6 p rfl, pay19_apply, hX]
    refine tileRow_eq x 2 (by norm_num) x0 _ _ _ (row4 p) p l (hx0' p) (fun j k => hxm 1024 (by norm_num) _ j k _ rfl)
      (fun j => hsq 1024 (by norm_num) _ j _ rfl) ?_
    unfold kernelRun4.sl.v133_1
    rw [StepLib.readCov_rows _ _ _ o6 p l (row4 p) rfl]
    exact C2 _ p l
  have C4 : ∀ (f : B.a6.view.ty.Contents (Elt Ideal)) (p : Fin 512) (l : Fin 128),
      View.read (Elt Ideal) B.a6.view (B.a6.view.writes (Elt Ideal) f (kernelRun4.sl.H6_4 (F := Ideal) c (grid0.coords t0_4) B hc2 hc3 hc4 hc5 x0 s0 s2 s3)) (ix2 (row4 p) l)
        = (lanesBelow 4 l).inf (T1 x (row4 p)) := by
    intro f p l
    unfold kernelRun4.sl.H6_4
    rw [StepLib.read_rows_mem _ _ _ _ _ (row4 p) l o7 p rfl, pay22_apply, hr]
    refine tileRow_eq x 3 (by norm_num) x0 _ _ _ (row4 p) p l (hx0' p) (fun j k => hxm 1536 (by norm_num) _ j k _ rfl)
      (fun j => hsq 1536 (by norm_num) _ j _ rfl) ?_
    unfold kernelRun4.sl.v133_2
    rw [StepLib.readCov_rows _ _ _ o7 p l (row4 p) rfl]
    exact C3 _ p l
  refine ⟨?_, ?_, ?_, ?_, ?_⟩
  · intro r k h
    dsimp only [stOf, St.ofVecs, kernelRun4]
    unfold kernelRun4.sl.H3_1
    by_cases hb : blk r = 4
    · obtain ⟨p, rfl⟩ := blkcase r hb
      rw [StepLib.read_rows_mem _ _ _ _ _ (row4 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun4]
    by_cases hb : blk r = 4
    · obtain ⟨p, rfl⟩ := blkcase r hb
      rw [StepLib.read_rows_mem _ _ _ _ _ (row4 p) 0 o2 p rfl, hX, pay10_apply]
      exact rowsq_eq x x0 p (row4 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun4]
    unfold kernelRun4.sl.H5_1
    by_cases hb : blk r = 4
    · obtain ⟨p, rfl⟩ := blkcase r hb
      rw [StepLib.read_cols_mem _ _ _ _ _ (row4 p) o3 p rfl, hX, pay11_apply]
      exact rowsq_eq x x0 p (row4 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun4]
    by_cases hb : blk r = 4
    · obtain ⟨p', rfl⟩ := blkcase r hb
      by_cases hh : p'.val < 256
      · obtain ⟨p, rfl⟩ : ∃ p : Fin 256, p' = lo p := ⟨⟨p'.val, hh⟩, rfl⟩
        have hlt : (row4 (lo p)).val < 2304 ∨ 2304 + 256 ≤ (row4 (lo p)).val :=
          Or.inl (by show 512 * 4 + p.val < 2304; omega)
        rw [StepLib.read_rows_not_mem (m0 := 256) _ _ _ _ _ (row4 (lo p)) l o11b hlt]
        unfold kernelRun4.sl.H6_6
        rw [StepLib.read_rows_not_mem (m0 := 256) _ _ _ _ _ (row4 (lo p)) l o11b hlt]
        unfold kernelRun4.sl.H6_5
        rw [StepLib.read_rows_mem _ _ _ _ _ (row4 (lo p)) l o11a p rfl, pay33_apply, hr]
        refine diagLower_eq x 4 (by norm_num) x0 _ _ _ (row4 (lo p)) p l rfl hx0' hxm1 hsq3 ?_
        unfold kernelRun4.sl.v60
        rw [StepLib.readCov_rows _ _ _ o11a p l (row4 (lo p)) rfl]
        exact C4 _ (lo p) l
      · obtain ⟨p, rfl⟩ : ∃ p : Fin 256, p' = up p :=
          ⟨⟨p'.val - 256, by omega⟩, Fin.ext (by show p'.val = 256 + (p'.val - 256); omega)⟩
        have hrow : (row4 (up p)).val = 2304 + p.val := by
          show 512 * 4 + (256 + p.val) = 2304 + p.val
          omega
        rw [StepLib.read_rows_mem _ _ _ _ _ (row4 (up p)) l o11b p hrow, pay1_eq]
        unfold kernelRun4.sl.r_6
        rw [pay38_apply, hr]
        unfold kernelRun4.sl.v115
        rw [StepLib.readCov_rows _ _ _ o11b p l (row4 (up p)) hrow]
        unfold kernelRun4.sl.H6_6
        rw [StepLib.read_rows_mem _ _ _ _ _ (row4 (up p)) l o11b p hrow, pay36_apply]
        unfold kernelRun4.sl.r_5
        rw [pay35_apply, pay35_apply, hr]
        refine diagUpper_eq x 4 (by norm_num) x0 _ _ _ _ _ (row4 (up p)) p l rfl hx0' hxm1 hsq3 ?_ rfl rfl
        unfold kernelRun4.sl.v78
        rw [StepLib.readCov_rows _ _ _ o11b p l (row4 (up p)) hrow]
        unfold kernelRun4.sl.H6_5
        rw [StepLib.read_rows_not_mem (m0 := 256) _ _ _ _ _ (row4 (up p)) l o11a (Or.inr (by omega))]
        exact C4 _ (up p) l
    · have hmiss : r.val < 2048 ∨ 2560 ≤ r.val := by simp only [blk] at hb; omega
      rw [StepLib.read_rows_not_mem (m0 := 256) _ _ _ _ _ r l o11b (by omega)]
      unfold kernelRun4.sl.H6_6
      rw [StepLib.read_rows_not_mem (m0 := 256) _ _ _ _ _ r l o11b (by omega)]
      unfold kernelRun4.sl.H6_5
      rw [StepLib.read_rows_not_mem (m0 := 256) _ _ _ _ _ r l o11a (by omega)]
      unfold kernelRun4.sl.H6_4
      rw [StepLib.read_rows_not_mem (m0 := 512) _ _ _ _ _ r l o7 (by omega)]
      unfold kernelRun4.sl.H6_3
      rw [StepLib.read_rows_not_mem (m0 := 512) _ _ _ _ _ r l o6 (by omega)]
      unfold kernelRun4.sl.H6_2
      rw [StepLib.read_rows_not_mem (m0 := 512) _ _ _ _ _ r l o5 (by omega)]
      unfold kernelRun4.sl.H6_1
      rw [StepLib.read_rows_not_mem (m0 := 512) _ _ _ _ _ r l o4 (by omega), View.writes_nil, B.h6.read_unread, hs3, rowSetL_succ_of_ne 3 r l hb]
  · intro cc
    have := cc.isLt
    dsimp only [stOf, St.ofVecs, kernelRun4]
    have hsq8 : ∀ p : Fin 512, k0_pay8 (F := Ideal) x0 (ix2 p 0) = sqn x (row4 p) := by
      intro p
      rw [pay8_apply]
      exact rowsq_eq x x0 p (row4 p) (hx0' p)
    have M7 : ∀ (f : B.a7.view.ty.Contents (Elt Ideal)) (cc : Fin 4096), 2048 ≤ cc.val →
        View.read (Elt Ideal) B.a7.view (B.a7.view.writes (Elt Ideal) f (kernelRun4.sl.H7_4 (F := Ideal) c (grid0.coords t0_4) B x0 s0 s4)) (ix2 0 cc)
          = View.read (Elt Ideal) B.a7.view f (ix2 0 cc) := by
      intro f cc h
      unfold kernelRun4.sl.H7_4
      rw [StepLib.read_cols_not_mem (m1 := 512) (o := 1536) _ _ _ _ _ cc rfl (Or.inr (by omega)),
        StepLib.read_cols_not_mem (m1 := 512) (o := 1024) _ _ _ _ _ cc rfl (Or.inr (by omega)),
        StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 2048
    · rw [StepLib.read_cols_not_mem (m1 := 256) _ _ _ _ _ cc o12 (Or.inl h5)]
      unfold kernelRun4.sl.H7_4
      by_cases hb3 : 1536 ≤ cc.val
      · have hj : cc.val - 1536 < 512 := by omega
        have hcj : cc.val = 1536 + (⟨cc.val - 1536, hj⟩ : Fin 512).val := by
          show cc.val = 1536 + (cc.val - 1536)
          omega
        rw [StepLib.read_cols_mem (o := 1536) _ _ _ _ _ cc rfl ⟨cc.val - 1536, hj⟩ hcj, pay23_apply, hr]
        refine tileCol_eq x 3 (by norm_num) x0 _ _ _ cc ⟨cc.val - 1536, hj⟩ (by simp only [blk]; omega) hx0'
          (fun k => hxm 1536 (by norm_num) _ _ k cc hcj) hsq2 (Eq.trans ?_ (hs4 cc))
        unfold kernelRun4.sl.v148_2
        rw [StepLib.readAt_cols (o := 1536) _ _ _ rfl ⟨cc.val - 1536, hj⟩ cc hcj, B.h7.read_unread]
      · rw [StepLib.read_cols_not_mem (m1 := 512) (o := 1536) _ _ _ _ _ cc rfl (Or.inl (by omega))]
        by_cases hb2 : 1024 ≤ cc.val
        · have hj : cc.val - 1024 < 512 := by omega
          have hcj : cc.val = 1024 + (⟨cc.val - 1024, hj⟩ : Fin 512).val := by
            show cc.val = 1024 + (cc.val - 1024)
            omega
          rw [StepLib.read_cols_mem (o := 1024) _ _ _ _ _ cc rfl ⟨cc.val - 1024, hj⟩ hcj, pay20_apply, hX]
          refine tileCol_eq x 3 (by norm_num) x0 _ _ _ cc ⟨cc.val - 1024, hj⟩ (by simp only [blk]; omega) hx0'
            (fun k => hxm 1024 (by norm_num) _ _ k cc hcj) hsq8 (Eq.trans ?_ (hs4 cc))
          unfold kernelRun4.sl.v148_1
          rw [StepLib.readAt_cols (o := 1024) _ _ _ rfl ⟨cc.val - 1024, hj⟩ cc hcj, B.h7.read_unread]
        · rw [StepLib.read_cols_not_mem (m1 := 512) (o := 1024) _ _ _ _ _ cc rfl (Or.inl (by omega))]
          by_cases hb1 : 512 ≤ cc.val
          · have hj : cc.val - 512 < 512 := by omega
            have hcj : cc.val = 512 + (⟨cc.val - 512, hj⟩ : Fin 512).val := by
              show cc.val = 512 + (cc.val - 512)
              omega
            rw [StepLib.read_cols_mem (o := 512) _ _ _ _ _ cc rfl ⟨cc.val - 512, hj⟩ hcj, pay17_apply, hX]
            refine tileCol_eq x 3 (by norm_num) x0 _ _ _ cc ⟨cc.val - 512, hj⟩ (by simp only [blk]; omega) hx0'
              (fun k => hxm 512 (by norm_num) _ _ k cc hcj) hsq8 (Eq.trans ?_ (hs4 cc))
            unfold kernelRun4.sl.v148
            rw [StepLib.readAt_cols (o := 512) _ _ _ rfl ⟨cc.val - 512, hj⟩ cc hcj, B.h7.read_unread]
          · rw [StepLib.read_cols_not_mem (m1 := 512) (o := 512) _ _ _ _ _ cc rfl (Or.inl (by omega))]
            have hj : cc.val - 0 < 512 := by omega
            have hcj : cc.val = 0 + (⟨cc.val - 0, hj⟩ : Fin 512).val := by
              show cc.val = 0 + (cc.val - 0)
              omega
            rw [StepLib.read_cols_mem (o := 0) _ _ _ _ _ cc rfl ⟨cc.val - 0, hj⟩ hcj, pay14_apply, hX]
            refine tileCol_eq x 3 (by norm_num) x0 _ _ _ cc ⟨cc.val - 0, hj⟩ (by simp only [blk]; omega) hx0'
              (fun k => hxm 0 (by norm_num) _ _ k cc hcj) hsq8 (Eq.trans ?_ (hs4 cc))
            rw [StepLib.readAt_cols (o := 0) _ _ _ rfl ⟨cc.val - 0, hj⟩ cc hcj, B.h7.read_unread]
    · by_cases h6 : cc.val < 2304
      · obtain ⟨q, rfl⟩ : ∃ q : Fin 256, cc = row4 (lo q) :=
          ⟨⟨cc.val - 2048, by omega⟩, Fin.ext (by show cc.val = 512 * 4 + (cc.val - 2048); omega)⟩
        rw [StepLib.read_cols_mem _ _ _ _ _ (row4 (lo q)) o12 q rfl, pay37_apply]
        refine (congrArg₂ min (?_ : _ = (⊤ : EReal)) (diagCol_eq x 4 (by norm_num) x0 _ _ _ (row4 (lo q)) q rfl hx0' hxm1 hsq2
          (fun p => by unfold kernelRun4.sl.r_4; rw [pay34_apply, hr]))).trans (min_eq_right le_top)
        rw [StepLib.readAt_cols _ _ _ o12 q (row4 (lo q)) rfl, M7 _ _ (by show 2048 ≤ 512 * 4 + q.val; omega),
          B.h7.read_unread, hs4, colSetG_empty 3 _ (by simp only [blk]; omega), Finset.inf_empty]
      · have e : colSetG 4 cc = colSetG 3 cc := colSetG_succ_rest 3 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step5.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row5 (j : Fin 512) : Fin 4096 := ⟨512 * 5 + j.val, by omega⟩

theorem inv_step5 (c : Dev nD) (B : Ops)
    (hc1 : ¬cond1 (grid0.coords t0_5)) (hc2 : k0_cond2 (grid0.coords t0_5) = 1#1) (hc3 : k0_cond3 (grid0.coords t0_5) = 1#1) (hc4 : k0_cond4 (grid0.coords t0_5) = 1#1) (hc5 : k0_cond5 (grid0.coords t0_5) = 1#1) (hc6 : k0_cond6 (grid0.coords t0_5) = 1#1) (hc7 : ¬k0_cond7 (grid0.coords t0_5) = 1#1) (hc8 : ¬k0_cond8 (grid0.coords t0_5) = 1#1) (hc9 : ¬k0_cond9 (grid0.coords t0_5) = 1#1)
    (x : Mat) (x0 : Vec Ideal S512x1024 .f32)
    (hx0 : ∀ (p : Fin 512) (k : Fin 1024), x0 (ix2 p k) = x ⟨512 * 5 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 4 (St.ofVecs s0 s1 s2 s3 s4)) :
    Inv x 5 (stOf (kernelRun5 (F := Ideal) c (grid0.coords t0_5) B hc1 hc2 hc3 hc4 hc5 hc6 hc7 hc8 hc9 x0 s0 s1 s2 s3 s4)) := by
  have o1 : k0_off1 (grid0.coords t0_5) = ![2560, 0] := by decide
  have o2 : k0_off2 (grid0.coords t0_5) = ![2560, 0] := by decide
  have o3 : k0_off3 (grid0.coords t0_5) = ![0, 2560] := by decide
  have hX := load_x0 B.a1 B.h1 x0
  have hs0 : ∀ (rr : Fin 4096) (k : Fin 1024), blk rr ≤ 4 → s0 (ix2 rr k) = MTWO * x rr k := hinv.xm2
  have hs1 : ∀ rr : Fin 4096, blk rr ≤ 4 → s1 (ix2 rr 0) = sqn x rr := hinv.sqr
  have hs2 : ∀ rr : Fin 4096, blk rr ≤ 4 → s2 (ix2 0 rr) = sqn x rr := hinv.sqc
  have hs3 : ∀ (rr : Fin 4096) (l : Fin 128), s3 (ix2 rr l) = (rowSetL 4 rr l).inf (T1 x rr) := hinv.racc
  have hs4 : ∀ cc : Fin 4096, s4 (ix2 0 cc) = (colSetG 4 cc).inf (fun r' => T2 x r' cc) := hinv.cacc
  have hx0' : ∀ (p : Fin 512) (k : Fin 1024), x0 (ix2 p k) = x (row5 p) k := hx0
  have blkcase : ∀ r : Fin 4096, blk r = 5 → ∃ p : Fin 512, r = row5 p := fun r hb =>
    ⟨⟨r.val - 2560, by have := r.isLt; simp only [blk] at hb; omega⟩, Fin.ext (by
      simp only [blk] at hb
      show r.val = 512 * 5 + (r.val - 2560)
      omega)⟩
  have o4 : k0_off4 (grid0.coords t0_5) = ![2560, 0] := by decide
  have o5 : k0_off5 (grid0.coords t0_5) = ![2560, 0] := by decide
  have o6 : k0_off6 (grid0.coords t0_5) = ![2560, 0] := by decide
  have o7 : k0_off7 (grid0.coords t0_5) = ![2560, 0] := by decide
  have o8 : k0_off8 (grid0.coords t0_5) = ![2560, 0] := by decide
  have o11a : k0_off11 (grid0.coords t0_5) 0#32 = ![2560, 0] := by decide
  have o11b : k0_off11 (grid0.coords t0_5) 256#32 = ![2816, 0] := by decide
  have o12 : k0_off12 (grid0.coords t0_5) = ![0, 2560] := by decide
  have hr : kernelRun5.sl.r (F := Ideal) c B x0 = x0 := by
    unfold kernelRun5.sl.r
    rw [hX, pay5_eq]
  have hxm1 : ∀ (j : Fin 512) (k : Fin 1024), kernelRun5.sl.r_1 (F := Ideal) c B x0 (ix2 j k) = MTWO * x (row5 j) k := by
    intro j k
    unfold kernelRun5.sl.r_1
    rw [hX, pay6_apply, hx0']
  have hsq2 : ∀ j : Fin 512, kernelRun5.sl.r_2 (F := Ideal) c B x0 (ix2 j 0) = sqn x (row5 j) := by
    intro j
    unfold kernelRun5.sl.r_2
    rw [hX, pay8_apply]
    exact rowsq_eq x x0 j (row5 j) (hx0' j)
  have hsq3 : ∀ j : Fin 512, kernelRun5.sl.r_3 (F := Ideal) c B x0 (ix2 0 j) = sqn x (row5 j) := by
    intro j
    unfold kernelRun5.sl.r_3
    rw [hX, pay9_apply]
    exact rowsq_eq x x0 j (row5 j) (hx0' j)
  have hxm : ∀ (o : ℕ) (ho : o + 512 ≤ 2560) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun5.sl.H3_1 (F := Ideal) c (grid0.coords t0_5) B x0)) (ix2 j k) = MTWO * x cj k := by
    intro o ho inb3 j k cj hcj
    rw [StepLib.readAt_rows _ _ _ rfl j k cj hcj]
    unfold kernelRun5.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 2560) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun5.sl.H5_1 (F := Ideal) c (grid0.coords t0_5) B x0)) (ix2 0 j) = sqn x cj := by
    intro o ho inb5 j cj hcj
    rw [StepLib.readAt_cols _ _ _ rfl j cj hcj]
    unfold kernelRun5.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun5.sl.H6_1 (F := Ideal) c (grid0.coords t0_5) B hc2 x0 s0 s2 s3)) (ix2 (row5 p) l)
        = (lanesBelow 1 l).inf (T1 x (row5 p)) := by
    intro f p l
    unfold kernelRun5.sl.H6_1
    rw [StepLib.read_rows_mem _ _ _ _ _ (row5 p) l o4 p rfl, pay13_apply, hX]
    refine tileRow_eq x 0 (by norm_num) x0 _ _ _ (row5 p) p l (hx0' p) (fun j k => hxm 0 (by norm_num) _ j k _ rfl)
      (fun j => hsq 0 (by norm_num) _ j _ rfl) ?_
    rw [StepLib.readAt_rows _ _ _ o4 p l (row5 p) rfl, B.h6.read_unread, hs3,
      rowSetL_empty 4 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun5.sl.H6_2 (F := Ideal) c (grid0.coords t0_5) B hc2 hc3 x0 s0 s2 s3)) (ix2 (row5 p) l)
        = (lanesBelow 2 l).inf (T1 x (row5 p)) := by
    intro f p l
    unfold kernelRun5.sl.H6_2
    rw [StepLib.read_rows_mem _ _ _ _ _ (row5 p) l o5 p rfl, pay16_apply, hX]
    refine tileRow_eq x 1 (by norm_num) x0 _ _ _ (row5 p) p l (hx0' p) (fun j k => hxm 512 (by norm_num) _ j k _ rfl)
      (fun j => hsq 512 (by norm_num) _ j _ rfl) ?_
    unfold kernelRun5.sl.v133
    rw [StepLib.readCov_rows _ _ _ o5 p l (row5 p) rfl]
    exact C1 _ p l
  have C3 : ∀ (f : B.a6.view.ty.Contents (Elt Ideal)) (p : Fin 512) (l : Fin 128),
      View.read (Elt Ideal) B.a6.view (B.a6.view.writes (Elt Ideal) f (kernelRun5.sl.H6_3 (F := Ideal) c (grid0.coords t0_5) B hc2 hc3 hc4 x0 s0 s2 s3)) (ix2 (row5 p) l)
        = (lanesBelow 3 l).inf (T1 x (row5 p)) := by
    intro f p l
    unfold kernelRun5.sl.H6_3
    rw [StepLib.read_rows_mem _ _ _ _ _ (row5 p) l o6 p rfl, pay19_apply, hX]
    refine tileRow_eq x 2 (by norm_num) x0 _ _ _ (row5 p) p l (hx0' p) (fun j k => hxm 1024 (by norm_num) _ j k _ rfl)
      (fun j => hsq 1024 (by norm_num) _ j _ rfl) ?_
    unfold kernelRun5.sl.v133_1
    rw [StepLib.readCov_rows _ _ _ o6 p l (row5 p) rfl]
    exact C2 _ p l
  have C4 : ∀ (f : B.a6.view.ty.Contents (Elt Ideal)) (p : Fin 512) (l : Fin 128),
      View.read (Elt Ideal) B.a6.view (B.a6.view.writes (Elt Ideal) f (kernelRun5.sl.H6_4 (F := Ideal) c (grid0.coords t0_5) B hc2 hc3 hc4 hc5 x0 s0 s2 s3)) (ix2 (row5 p) l)
        = (lanesBelow 4 l).inf (T1 x (row5 p)) := by
    intro f p l
    unfold kernelRun5.sl.H6_4
    rw [StepLib.read_rows_mem _ _ _ _ _ (row5 p) l o7 p rfl, pay22_apply, hr]
    refine tileRow_eq x 3 (by norm_num) x0 _ _ _ (row5 p) p l (hx0' p) (fun j k => hxm 1536 (by norm_num) _ j k _ rfl)
      (fun j => hsq 1536 (by norm_num) _ j _ rfl) ?_
    unfold kernelRun5.sl.v133_2
    rw [StepLib.readCov_rows _ _ _ o7 p l (row5 p) rfl]
    exact C3 _ p l
  have C5 : ∀ (f : B.a6.view.ty.Contents (Elt Ideal)) (p : Fin 512) (l : Fin 128),
      View.read (Elt Ideal) B.a6.view (B.a6.view.writes (Elt Ideal) f (kernelRun5.sl.H6_5 (F := Ideal) c (grid0.coords t0_5) B hc2 hc3 hc4 hc5 hc6 x0 s0 s2 s3)) (ix2 (row5 p) l)
        = (lanesBelow 5 l).inf (T1 x (row5 p)) := by
    intro f p l
    unfold kernelRun5.sl.H6_5
    rw [StepLib.read_rows_mem _ _ _ _ _ (row5 p) l o8 p rfl, pay25_apply, hr]
    refine tileRow_eq x 4 (by norm_num) x0 _ _ _ (row5 p) p l (hx0' p) (fun j k => hxm 2048 (by norm_num) _ j k _ rfl)
      (fun j => hsq 2048 (by norm_num) _ j _ rfl) ?_
    unfold kernelRun5.sl.v133_3
    rw [StepLib.readCov_rows _ _ _ o8 p l (row5 p) rfl]
    exact C4 _ p l
  refine ⟨?_, ?_, ?_, ?_, ?_⟩
  · intro r k h
    dsimp only [stOf, St.ofVecs, kernelRun5]
    unfold kernelRun5.sl.H3_1
    by_cases hb : blk r = 5
    · obtain ⟨p, rfl⟩ := blkcase r hb
      rw [StepLib.read_rows_mem _ _ _ _ _ (row5 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun5]
    by_cases hb : blk r = 5
    · obtain ⟨p, rfl⟩ := blkcase r hb
      rw [StepLib.read_rows_mem _ _ _ _ _ (row5 p) 0 o2 p rfl, hX, pay10_apply]
      exact rowsq_eq x x0 p (row5 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun5]
    unfold kernelRun5.sl.H5_1
    by_cases hb : blk r = 5
    · obtain ⟨p, rfl⟩ := blkcase r hb
      rw [StepLib.read_cols_mem _ _ _ _ _ (row5 p) o3 p rfl, hX, pay11_apply]
      exact rowsq_eq x x0 p (row5 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun5]
    by_cases hb : blk r = 5
    · obtain ⟨p', rfl⟩ := blkcase r hb
      by_cases hh : p'.val < 256
      · obtain ⟨p, rfl⟩ : ∃ p : Fin 256, p' = lo p := ⟨⟨p'.val, hh⟩, rfl⟩
        have hlt : (row5 (lo p)).val < 2816 ∨ 2816 + 256 ≤ (row5 (lo p)).val :=
          Or.inl (by show 512 * 5 + p.val < 2816; omega)
        rw [StepLib.read_rows_not_mem (m0 := 256) _ _ _ _ _ (row5 (lo p)) l o11b hlt]
        unfold kernelRun5.sl.H6_7
        rw [StepLib.read_rows_not_mem (m0 := 256) _ _ _ _ _ (row5 (lo p)) l o11b hlt]
        unfold kernelRun5.sl.H6_6
        rw [StepLib.read_rows_mem _ _ _ _ _ (row5 (lo p)) l o11a p rfl, pay33_apply, hr]
        refine diagLower_eq x 5 (by norm_num) x0 _ _ _ (row5 (lo p)) p l rfl hx0' hxm1 hsq3 ?_
        unfold kernelRun5.sl.v60
        rw [StepLib.readCov_rows _ _ _ o11a p l (row5 (lo p)) rfl]
        exact C5 _ (lo p) l
      · obtain ⟨p, rfl⟩ : ∃ p : Fin 256, p' = up p :=
          ⟨⟨p'.val - 256, by omega⟩, Fin.ext (by show p'.val = 256 + (p'.val - 256); omega)⟩
        have hrow : (row5 (up p)).val = 2816 + p.val := by
          show 512 * 5 + (256 + p.val) = 2816 + p.val
          omega
        rw [StepLib.read_rows_mem _ _ _ _ _ (row5 (up p)) l o11b p hrow, pay1_eq]
        unfold kernelRun5.sl.r_6
        rw [pay38_apply, hr]
        unfold kernelRun5.sl.v115
        rw [StepLib.readCov_rows _ _ _ o11b p l (row5 (up p)) hrow]
        unfold kernelRun5.sl.H6_7
        rw [StepLib.read_rows_mem _ _ _ _ _ (row5 (up p)) l o11b p hrow, pay36_apply]
        unfold kernelRun5.sl.r_5
        rw [pay35_apply, pay35_apply, hr]
        refine diagUpper_eq x 5 (by norm_num) x0 _ _ _ _ _ (row5 (up p)) p l rfl hx0' hxm1 hsq3 ?_ rfl rfl
        unfold kernelRun5.sl.v78
        rw [StepLib.readCov_rows _ _ _ o11b p l (row5 (up p)) hrow]
        unfold kernelRun5.sl.H6_6
        rw [StepLib.read_rows_not_mem (m0 := 256) _ _ _ _ _ (row5 (up p)) l o11a (Or.inr (by omega))]
        exact C5 _ (up p) l
    · have hmiss : r.val < 2560 ∨ 3072 ≤ r.val := by simp only [blk] at hb; omega
      rw [StepLib.read_rows_not_mem (m0 := 256) _ _ _ _ _ r l o11b (by omega)]
      unfold kernelRun5.sl.H6_7
      rw [StepLib.read_rows_not_mem (m0 := 256) _ _ _ _ _ r l o11b (by omega)]
      unfold kernelRun5.sl.H6_6
      rw [StepLib.read_rows_not_mem (m0 := 256) _ _ _ _ _ r l o11a (by omega)]
      unfold kernelRun5.sl.H6_5
      rw [StepLib.read_rows_not_mem (m0 := 512) _ _ _ _ _ r l o8 (by omega)]
      unfold kernelRun5.sl.H6_4
      rw [StepLib.read_rows_not_mem (m0 := 512) _ _ _ _ _ r l o7 (by omega)]
      unfold kernelRun5.sl.H6_3
      rw [StepLib.read_rows_not_mem (m0 := 512) _ _ _ _ _ r l o6 (by omega)]
      unfold kernelRun5.sl.H6_2
      rw [StepLib.read_rows_not_mem (m0 := 512) _ _ _ _ _ r l o5 (by omega)]
      unfold kernelRun5.sl.H6_1
      rw [StepLib.read_rows_not_mem (m0 := 512) _ _ _ _ _ r l o4 (by omega), View.writes_nil, B.h6.read_unread, hs3, rowSetL_succ_of_ne 4 r l hb]
  · intro cc
    have := cc.isLt
    dsimp only [stOf, St.ofVecs, kernelRun5]
    have hsq8 : ∀ p : Fin 512, k0_pay8 (F := Ideal) x0 (ix2 p 0) = sqn x (row5 p) := by
      intro p
      rw [pay8_apply]
      exact rowsq_eq x x0 p (row5 p) (hx0' p)
    have M7 : ∀ (f : B.a7.view.ty.Contents (Elt Ideal)) (cc : Fin 4096), 2560 ≤ cc.val →
        View.read (Elt Ideal) B.a7.view (B.a7.view.writes (Elt Ideal) f (kernelRun5.sl.H7_5 (F := Ideal) c (grid0.coords t0_5) B x0 s0 s4)) (ix2 0 cc)
          = View.read (Elt Ideal) B.a7.view f (ix2 0 cc) := by
      intro f cc h
      unfold kernelRun5.sl.H7_5
      rw [StepLib.read_cols_not_mem (m1 := 512) (o := 2048) _ _ _ _ _ cc rfl (Or.inr (by omega)),
        StepLib.read_cols_not_mem (m1 := 512) (o := 1536) _ _ _ _ _ cc rfl (Or.inr (by omega)),
        StepLib.read_cols_not_mem (m1 := 512) (o := 1024) _ _ _ _ _ cc rfl (Or.inr (by omega)),
        StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 2560
    · rw [StepLib.read_cols_not_mem (m1 := 256) _ _ _ _ _ cc o12 (Or.inl h5)]
      unfold kernelRun5.sl.H7_5
      by_cases hb4 : 2048 ≤ cc.val
      · have hj : cc.val - 2048 < 512 := by omega
        have hcj : cc.val = 2048 + (⟨cc.val - 2048, hj⟩ : Fin 512).val := by
          show cc.val = 2048 + (cc.val - 2048)
          omega
        rw [StepLib.read_cols_mem (o := 2048) _ _ _ _ _ cc rfl ⟨cc.val - 2048, hj⟩ hcj, pay26_apply, hr]
        refine tileCol_eq x 4 (by norm_num) x0 _ _ _ cc ⟨cc.val - 2048, hj⟩ (by simp only [blk]; omega) hx0'
          (fun k => hxm 2048 (by norm_num) _ _ k cc hcj) hsq2 (Eq.trans ?_ (hs4 cc))
        unfold kernelRun5.sl.v148_3
        rw [StepLib.readAt_cols (o := 2048) _ _ _ rfl ⟨cc.val - 2048, hj⟩ cc hcj, B.h7.read_unread]
      · rw [StepLib.read_cols_not_mem (m1 := 512) (o := 2048) _ _ _ _ _ cc rfl (Or.inl (by omega))]
        by_cases hb3 : 1536 ≤ cc.val
        · have hj : cc.val - 1536 < 512 := by omega
          have hcj : cc.val = 1536 + (⟨cc.val - 1536, hj⟩ : Fin 512).val := by
            show cc.val = 1536 + (cc.val - 1536)
            omega
          rw [StepLib.read_cols_mem (o := 1536) _ _ _ _ _ cc rfl ⟨cc.val - 1536, hj⟩ hcj, pay23_apply, hr]
          refine tileCol_eq x 4 (by norm_num) x0 _ _ _ cc ⟨cc.val - 1536, hj⟩ (by simp only [blk]; omega) hx0'
            (fun k => hxm 1536 (by norm_num) _ _ k cc hcj) hsq2 (Eq.trans ?_ (hs4 cc))
          unfold kernelRun5.sl.v148_2
          rw [StepLib.readAt_cols (o := 1536) _ _ _ rfl ⟨cc.val - 1536, hj⟩ cc hcj, B.h7.read_unread]
        · rw [StepLib.read_cols_not_mem (m1 := 512) (o := 1536) _ _ _ _ _ cc rfl (Or.inl (by omega))]
          by_cases hb2 : 1024 ≤ cc.val
          · have hj : cc.val - 1024 < 512 := by omega
            have hcj : cc.val = 1024 + (⟨cc.val - 1024, hj⟩ : Fin 512).val := by
              show cc.val = 1024 + (cc.val - 1024)
              omega
            rw [StepLib.read_cols_mem (o := 1024) _ _ _ _ _ cc rfl ⟨cc.val - 1024, hj⟩ hcj, pay20_apply, hX]
            refine tileCol_eq x 4 (by norm_num) x0 _ _ _ cc ⟨cc.val - 1024, hj⟩ (by simp only [blk]; omega) hx0'
              (fun k => hxm 1024 (by norm_num) _ _ k cc hcj) hsq8 (Eq.trans ?_ (hs4 cc))
            unfold kernelRun5.sl.v148_1
            rw [StepLib.readAt_cols (o := 1024) _ _ _ rfl ⟨cc.val - 1024, hj⟩ cc hcj, B.h7.read_unread]
          · rw [StepLib.read_cols_not_mem (m1 := 512) (o := 1024) _ _ _ _ _ cc rfl (Or.inl (by omega))]
            by_cases hb1 : 512 ≤ cc.val
            · have hj : cc.val - 512 < 512 := by omega
              have hcj : cc.val = 512 + (⟨cc.val - 512, hj⟩ : Fin 512).val := by
                show cc.val = 512 + (cc.val - 512)
                omega
              rw [StepLib.read_cols_mem (o := 512) _ _ _ _ _ cc rfl ⟨cc.val - 512, hj⟩ hcj, pay17_apply, hX]
              refine tileCol_eq x 4 (by norm_num) x0 _ _ _ cc ⟨cc.val - 512, hj⟩ (by simp only [blk]; omega) hx0'
                (fun k => hxm 512 (by norm_num) _ _ k cc hcj) hsq8 (Eq.trans ?_ (hs4 cc))
              unfold kernelRun5.sl.v148
              rw [StepLib.readAt_cols (o := 512) _ _ _ rfl ⟨cc.val - 512, hj⟩ cc hcj, B.h7.read_unread]
            · rw [StepLib.read_cols_not_mem (m1 := 512) (o := 512) _ _ _ _ _ cc rfl (Or.inl (by omega))]
              have hj : cc.val - 0 < 512 := by omega
              have hcj : cc.val = 0 + (⟨cc.val - 0, hj⟩ : Fin 512).val := by
                show cc.val = 0 + (cc.val - 0)
                omega
              rw [StepLib.read_cols_mem (o := 0) _ _ _ _ _ cc rfl ⟨cc.val - 0, hj⟩ hcj, pay14_apply, hX]
              refine tileCol_eq x 4 (by norm_num) x0 _ _ _ cc ⟨cc.val - 0, hj⟩ (by simp only [blk]; omega) hx0'
                (fun k => hxm 0 (by norm_num) _ _ k cc hcj) hsq8 (Eq.trans ?_ (hs4 cc))
              rw [StepLib.readAt_cols (o := 0) _ _ _ rfl ⟨cc.val - 0, hj⟩ cc hcj, B.h7.read_unread]
    · by_cases h6 : cc.val < 2816
      · obtain ⟨q, rfl⟩ : ∃ q : Fin 256, cc = row5 (lo q) :=
          ⟨⟨cc.val - 2560, by omega⟩, Fin.ext (by show cc.val = 512 * 5 + (cc.val - 2560); omega)⟩
        rw [StepLib.read_cols_mem _ _ _ _ _ (row5 (lo q)) o12 q rfl, pay37_apply]
        refine (congrArg₂ min (?_ : _ = (⊤ : EReal)) (diagCol_eq x 5 (by norm_num) x0 _ _ _ (row5 (lo q)) q rfl hx0' hxm1 hsq2
          (fun p => by unfold kernelRun5.sl.r_4; rw [pay34_apply, hr]))).trans (min_eq_right le_top)
        rw [StepLib.readAt_cols _ _ _ o12 q (row5 (lo q)) rfl, M7 _ _ (by show 2560 ≤ 512 * 5 + q.val; omega),
          B.h7.read_unread, hs4, colSetG_empty 4 _ (by simp only [blk]; omega), Finset.inf_empty]
      · have e : colSetG 5 cc = colSetG 4 cc := colSetG_succ_rest 4 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step6.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row6 (j : Fin 512) : Fin 4096 := ⟨512 * 6 + j.val, by omega⟩

theorem inv_step6 (c : Dev nD) (B : Ops)
    (hc1 : ¬cond1 (grid0.coords t0_6)) (hc2 : k0_cond2 (grid0.coords t0_6) = 1#1) (hc3 : k0_cond3 (grid0.coords t0_6) = 1#1) (hc4 : k0_cond4 (grid0.coords t0_6) = 1#1) (hc5 : k0_cond5 (grid0.coords t0_6) = 1#1) (hc6 : k0_cond6 (grid0.coords t0_6) = 1#1) (hc7 : k0_cond7 (grid0.coords t0_6) = 1#1) (hc8 : ¬k0_cond8 (grid0.coords t0_6) = 1#1) (hc9 : ¬k0_cond9 (grid0.coords t0_6) = 1#1)
    (x : Mat) (x0 : Vec Ideal S512x1024 .f32)
    (hx0 : ∀ (p : Fin 512) (k : Fin 1024), x0 (ix2 p k) = x ⟨512 * 6 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 5 (St.ofVecs s0 s1 s2 s3 s4)) :
    Inv x 6 (stOf (kernelRun6 (F := Ideal) c (grid0.coords t0_6) B hc1 hc2 hc3 hc4 hc5 hc6 hc7 hc8 hc9 x0 s0 s1 s2 s3 s4)) := by
  have o1 : k0_off1 (grid0.coords t0_6) = ![3072, 0] := by decide
  have o2 : k0_off2 (grid0.coords t0_6) = ![3072, 0] := by decide
  have o3 : k0_off3 (grid0.coords t0_6) = ![0, 3072] := by decide
  have hX := load_x0 B.a1 B.h1 x0
  have hs0 : ∀ (rr : Fin 4096) (k : Fin 1024), blk rr ≤ 5 → s0 (ix2 rr k) = MTWO * x rr k := hinv.xm2
  have hs1 : ∀ rr : Fin 4096, blk rr ≤ 5 → s1 (ix2 rr 0) = sqn x rr := hinv.sqr
  have hs2 : ∀ rr : Fin 4096, blk rr ≤ 5 → s2 (ix2 0 rr) = sqn x rr := hinv.sqc
  have hs3 : ∀ (rr : Fin 4096) (l : Fin 128), s3 (ix2 rr l) = (rowSetL 5 rr l).inf (T1 x rr) := hinv.racc
  have hs4 : ∀ cc : Fin 4096, s4 (ix2 0 cc) = (colSetG 5 cc).inf (fun r' => T2 x r' cc) := hinv.cacc
  have hx0' : ∀ (p : Fin 512) (k : Fin 1024), x0 (ix2 p k) = x (row6 p) k := hx0
  have blkcase : ∀ r : Fin 4096, blk r = 6 → ∃ p : Fin 512, r = row6 p := fun r hb =>
    ⟨⟨r.val - 3072, by have := r.isLt; simp only [blk] at hb; omega⟩, Fin.ext (by
      simp only [blk] at hb
      show r.val = 512 * 6 + (r.val - 3072)
      omega)⟩
  have o4 : k0_off4 (grid0.coords t0_6) = ![3072, 0] := by decide
  have o5 : k0_off5 (grid0.coords t0_6) = ![3072, 0] := by decide
  have o6 : k0_off6 (grid0.coords t0_6) = ![3072, 0] := by decide
  have o7 : k0_off7 (grid0.coords t0_6) = ![3072, 0] := by decide
  have o8 : k0_off8 (grid0.coords t0_6) = ![3072, 0] := by decide
  have o9 : k0_off9 (grid0.coords t0_6) = ![3072, 0] := by decide
  have o11a : k0_off11 (grid0.coords t0_6) 0#32 = ![3072, 0] := by decide
  have o11b : k0_off11 (grid0.coords t0_6) 256#32 = ![3328, 0] := by decide
  have o12 : k0_off12 (grid0.coords t0_6) = ![0, 3072] := by decide
  have hr : kernelRun6.sl.r (F := Ideal) c B x0 = x0 := by
    unfold kernelRun6.sl.r
    rw [hX, pay5_eq]
  have hxm1 : ∀ (j : Fin 512) (k : Fin 1024), kernelRun6.sl.r_1 (F := Ideal) c B x0 (ix2 j k) = MTWO * x (row6 j) k := by
    intro j k
    unfold kernelRun6.sl.r_1
    rw [hX, pay6_apply, hx0']
  have hsq2 : ∀ j : Fin 512, kernelRun6.sl.r_2 (F := Ideal) c B x0 (ix2 j 0) = sqn x (row6 j) := by
    intro j
    unfold kernelRun6.sl.r_2
    rw [hX, pay8_apply]
    exact rowsq_eq x x0 j (row6 j) (hx0' j)
  have hsq3 : ∀ j : Fin 512, kernelRun6.sl.r_3 (F := Ideal) c B x0 (ix2 0 j) = sqn x (row6 j) := by
    intro j
    unfold kernelRun6.sl.r_3
    rw [hX, pay9_apply]
    exact rowsq_eq x x0 j (row6 j) (hx0' j)
  have hxm : ∀ (o : ℕ) (ho : o + 512 ≤ 3072) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun6.sl.H3_1 (F := Ideal) c (grid0.coords t0_6) B x0)) (ix2 j k) = MTWO * x cj k := by
    intro o ho inb3 j k cj hcj
    rw [StepLib.readAt_rows _ _ _ rfl j k cj hcj]
    unfold kernelRun6.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 3072) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun6.sl.H5_1 (F := Ideal) c (grid0.coords t0_6) B x0)) (ix2 0 j) = sqn x cj := by
    intro o ho inb5 j cj hcj
    rw [StepLib.readAt_cols _ _ _ rfl j cj hcj]
    unfold kernelRun6.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun6.sl.H6_1 (F := Ideal) c (grid0.coords t0_6) B hc2 x0 s0 s2 s3)) (ix2 (row6 p) l)
        = (lanesBelow 1 l).inf (T1 x (row6 p)) := by
    intro f p l
    unfold kernelRun6.sl.H6_1
    rw [StepLib.read_rows_mem _ _ _ _ _ (row6 p) l o4 p rfl, pay13_apply, hX]
    refine tileRow_eq x 0 (by norm_num) x0 _ _ _ (row6 p) p l (hx0' p) (fun j k => hxm 0 (by norm_num) _ j k _ rfl)
      (fun j => hsq 0 (by norm_num) _ j _ rfl) ?_
    rw [StepLib.readAt_rows _ _ _ o4 p l (row6 p) rfl, B.h6.read_unread, hs3,
      rowSetL_empty 5 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun6.sl.H6_2 (F := Ideal) c (grid0.coords t0_6) B hc2 hc3 x0 s0 s2 s3)) (ix2 (row6 p) l)
        = (lanesBelow 2 l).inf (T1 x (row6 p)) := by
    intro f p l
    unfold kernelRun6.sl.H6_2
    rw [StepLib.read_rows_mem _ _ _ _ _ (row6 p) l o5 p rfl, pay16_apply, hX]
    refine tileRow_eq x 1 (by norm_num) x0 _ _ _ (row6 p) p l (hx0' p) (fun j k => hxm 512 (by norm_num) _ j k _ rfl)
      (fun j => hsq 512 (by norm_num) _ j _ rfl) ?_
    unfold kernelRun6.sl.v133
    rw [StepLib.readCov_rows _ _ _ o5 p l (row6 p) rfl]
    exact C1 _ p l
  have C3 : ∀ (f : B.a6.view.ty.Contents (Elt Ideal)) (p : Fin 512) (l : Fin 128),
      View.read (Elt Ideal) B.a6.view (B.a6.view.writes (Elt Ideal) f (kernelRun6.sl.H6_3 (F := Ideal) c (grid0.coords t0_6) B hc2 hc3 hc4 x0 s0 s2 s3)) (ix2 (row6 p) l)
        = (lanesBelow 3 l).inf (T1 x (row6 p)) := by
    intro f p l
    unfold kernelRun6.sl.H6_3
    rw [StepLib.read_rows_mem _ _ _ _ _ (row6 p) l o6 p rfl, pay19_apply, hX]
    refine tileRow_eq x 2 (by norm_num) x0 _ _ _ (row6 p) p l (hx0' p) (fun j k => hxm 1024 (by norm_num) _ j k _ rfl)
      (fun j => hsq 1024 (by norm_num) _ j _ rfl) ?_
    unfold kernelRun6.sl.v133_1
    rw [StepLib.readCov_rows _ _ _ o6 p l (row6 p) rfl]
    exact C2 _ p l
  have C4 : ∀ (f : B.a6.view.ty.Contents (Elt Ideal)) (p : Fin 512) (l : Fin 128),
      View.read (Elt Ideal) B.a6.view (B.a6.view.writes (Elt Ideal) f (kernelRun6.sl.H6_4 (F := Ideal) c (grid0.coords t0_6) B hc2 hc3 hc4 hc5 x0 s0 s2 s3)) (ix2 (row6 p) l)
        = (lanesBelow 4 l).inf (T1 x (row6 p)) := by
    intro f p l
    unfold kernelRun6.sl.H6_4
    rw [StepLib.read_rows_mem _ _ _ _ _ (row6 p) l o7 p rfl, pay22_apply, hr]
    refine tileRow_eq x 3 (by norm_num) x0 _ _ _ (row6 p) p l (hx0' p) (fun j k => hxm 1536 (by norm_num) _ j k _ rfl)
      (fun j => hsq 1536 (by norm_num) _ j _ rfl) ?_
    unfold kernelRun6.sl.v133_2
    rw [StepLib.readCov_rows _ _ _ o7 p l (row6 p) rfl]
    exact C3 _ p l
  have C5 : ∀ (f : B.a6.view.ty.Contents (Elt Ideal)) (p : Fin 512) (l : Fin 128),
      View.read (Elt Ideal) B.a6.view (B.a6.view.writes (Elt Ideal) f (kernelRun6.sl.H6_5 (F := Ideal) c (grid0.coords t0_6) B hc2 hc3 hc4 hc5 hc6 x0 s0 s2 s3)) (ix2 (row6 p) l)
        = (lanesBelow 5 l).inf (T1 x (row6 p)) := by
    intro f p l
    unfold kernelRun6.sl.H6_5
    rw [StepLib.read_rows_mem _ _ _ _ _ (row6 p) l o8 p rfl, pay25_apply, hr]
    refine tileRow_eq x 4 (by norm_num) x0 _ _ _ (row6 p) p l (hx0' p) (fun j k => hxm 2048 (by norm_num) _ j k _ rfl)
      (fun j => hsq 2048 (by norm_num) _ j _ rfl) ?_
    unfold kernelRun6.sl.v133_3
    rw [StepLib.readCov_rows _ _ _ o8 p l (row6 p) rfl]
    exact C4 _ p l
  have C6 : ∀ (f : B.a6.view.ty.Contents (Elt Ideal)) (p : Fin 512) (l : Fin 128),
      View.read (Elt Ideal) B.a6.view (B.a6.view.writes (Elt Ideal) f (kernelRun6.sl.H6_6 (F := Ideal) c (grid0.coords t0_6) B hc2 hc3 hc4 hc5 hc6 hc7 x0 s0 s2 s3)) (ix2 (row6 p) l)
        = (lanesBelow 6 l).inf (T1 x (row6 p)) := by
    intro f p l
    unfold kernelRun6.sl.H6_6
    rw [StepLib.read_rows_mem _ _ _ _ _ (row6 p) l o9 p rfl, pay28_apply, hr]
    refine tileRow_eq x 5 (by norm_num) x0 _ _ _ (row6 p) p l (hx0' p) (fun j k => hxm 2560 (by norm_num) _ j k _ rfl)
      (fun j => hsq 2560 (by norm_num) _ j _ rfl) ?_
    unfold kernelRun6.sl.v133_4
    rw [StepLib.readCov_rows _ _ _ o9 p l (row6 p) rfl]
    exact C5 _ p l
  refine ⟨?_, ?_, ?_, ?_, ?_⟩
  · intro r k h
    dsimp only [stOf, St.ofVecs, kernelRun6]
    unfold kernelRun6.sl.H3_1
    by_cases hb : blk r = 6
    · obtain ⟨p, rfl⟩ := blkcase r hb
      rw [StepLib.read_rows_mem _ _ _ _ _ (row6 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun6]
    by_cases hb : blk r = 6
    · obtain ⟨p, rfl⟩ := blkcase r hb
      rw [StepLib.read_rows_mem _ _ _ _ _ (row6 p) 0 o2 p rfl, hX, pay10_apply]
      exact rowsq_eq x x0 p (row6 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun6]
    unfold kernelRun6.sl.H5_1
    by_cases hb : blk r = 6
    · obtain ⟨p, rfl⟩ := blkcase r hb
      rw [StepLib.read_cols_mem _ _ _ _ _ (row6 p) o3 p rfl, hX, pay11_apply]
      exact rowsq_eq x x0 p (row6 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun6]
    by_cases hb : blk r = 6
    · obtain ⟨p', rfl⟩ := blkcase r hb
      by_cases hh : p'.val < 256
      · obtain ⟨p, rfl⟩ : ∃ p : Fin 256, p' = lo p := ⟨⟨p'.val, hh⟩, rfl⟩
        have hlt : (row6 (lo p)).val < 3328 ∨ 3328 + 256 ≤ (row6 (lo p)).val :=
          Or.inl (by show 512 * 6 + p.val < 3328; omega)
        rw [StepLib.read_rows_not_mem (m0 := 256) _ _ _ _ _ (row6 (lo p)) l o11b hlt]
        unfold kernelRun6.sl.H6_8
        rw [StepLib.read_rows_not_mem (m0 := 256) _ _ _ _ _ (row6 (lo p)) l o11b hlt]
        unfold kernelRun6.sl.H6_7
        rw [StepLib.read_rows_mem _ _ _ _ _ (row6 (lo p)) l o11a p rfl, pay33_apply, hr]
        refine diagLower_eq x 6 (by norm_num) x0 _ _ _ (row6 (lo p)) p l rfl hx0' hxm1 hsq3 ?_
        unfold kernelRun6.sl.v60
        rw [StepLib.readCov_rows _ _ _ o11a p l (row6 (lo p)) rfl]
        exact C6 _ (lo p) l
      · obtain ⟨p, rfl⟩ : ∃ p : Fin 256, p' = up p :=
          ⟨⟨p'.val - 256, by omega⟩, Fin.ext (by show p'.val = 256 + (p'.val - 256); omega)⟩
        have hrow : (row6 (up p)).val = 3328 + p.val := by
          show 512 * 6 + (256 + p.val) = 3328 + p.val
          omega
        rw [StepLib.read_rows_mem _ _ _ _ _ (row6 (up p)) l o11b p hrow, pay1_eq]
        unfold kernelRun6.sl.r_6
        rw [pay38_apply, hr]
        unfold kernelRun6.sl.v115
        rw [StepLib.readCov_rows _ _ _ o11b p l (row6 (up p)) hrow]
        unfold kernelRun6.sl.H6_8
        rw [StepLib.read_rows_mem _ _ _ _ _ (row6 (up p)) l o11b p hrow, pay36_apply]
        unfold kernelRun6.sl.r_5
        rw [pay35_apply, pay35_apply, hr]
        refine diagUpper_eq x 6 (by norm_num) x0 _ _ _ _ _ (row6 (up p)) p l rfl hx0' hxm1 hsq3 ?_ rfl rfl
        unfold kernelRun6.sl.v78
        rw [StepLib.readCov_rows _ _ _ o11b p l (row6 (up p)) hrow]
        unfold kernelRun6.sl.H6_7
        rw [StepLib.read_rows_not_mem (m0 := 256) _ _ _ _ _ (row6 (up p)) l o11a (Or.inr (by omega))]
        exact C6 _ (up p) l
    · have hmiss : r.val < 3072 ∨ 3584 ≤ r.val := by simp only [blk] at hb; omega
      rw [StepLib.read_rows_not_mem (m0 := 256) _ _ _ _ _ r l o11b (by omega)]
      unfold kernelRun6.sl.H6_8
      rw [StepLib.read_rows_not_mem (m0 := 256) _ _ _ _ _ r l o11b (by omega)]
      unfold kernelRun6.sl.H6_7
      rw [StepLib.read_rows_not_mem (m0 := 256) _ _ _ _ _ r l o11a (by omega)]
      unfold kernelRun6.sl.H6_6
      rw [StepLib.read_rows_not_mem (m0 := 512) _ _ _ _ _ r l o9 (by omega)]
      unfold kernelRun6.sl.H6_5
      rw [StepLib.read_rows_not_mem (m0 := 512) _ _ _ _ _ r l o8 (by omega)]
      unfold kernelRun6.sl.H6_4
      rw [StepLib.read_rows_not_mem (m0 := 512) _ _ _ _ _ r l o7 (by omega)]
      unfold kernelRun6.sl.H6_3
      rw [StepLib.read_rows_not_mem (m0 := 512) _ _ _ _ _ r l o6 (by omega)]
      unfold kernelRun6.sl.H6_2
      rw [StepLib.read_rows_not_mem (m0 := 512) _ _ _ _ _ r l o5 (by omega)]
      unfold kernelRun6.sl.H6_1
      rw [StepLib.read_rows_not_mem (m0 := 512) _ _ _ _ _ r l o4 (by omega), View.writes_nil, B.h6.read_unread, hs3, rowSetL_succ_of_ne 5 r l hb]
  · intro cc
    have := cc.isLt
    dsimp only [stOf, St.ofVecs, kernelRun6]
    have hsq8 : ∀ p : Fin 512, k0_pay8 (F := Ideal) x0 (ix2 p 0) = sqn x (row6 p) := by
      intro p
      rw [pay8_apply]
      exact rowsq_eq x x0 p (row6 p) (hx0' p)
    have M7 : ∀ (f : B.a7.view.ty.Contents (Elt Ideal)) (cc : Fin 4096), 3072 ≤ cc.val →
        View.read (Elt Ideal) B.a7.view (B.a7.view.writes (Elt Ideal) f (kernelRun6.sl.H7_6 (F := Ideal) c (grid0.coords t0_6) B x0 s0 s4)) (ix2 0 cc)
          = View.read (Elt Ideal) B.a7.view f (ix2 0 cc) := by
      intro f cc h
      unfold kernelRun6.sl.H7_6
      rw [StepLib.read_cols_not_mem (m1 := 512) (o := 2560) _ _ _ _ _ cc rfl (Or.inr (by omega)),
        StepLib.read_cols_not_mem (m1 := 512) (o := 2048) _ _ _ _ _ cc rfl (Or.inr (by omega)),
        StepLib.read_cols_not_mem (m1 := 512) (o := 1536) _ _ _ _ _ cc rfl (Or.inr (by omega)),
        StepLib.read_cols_not_mem (m1 := 512) (o := 1024) _ _ _ _ _ cc rfl (Or.inr (by omega)),
        StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 3072
    · rw [StepLib.read_cols_not_mem (m1 := 256) _ _ _ _ _ cc o12 (Or.inl h5)]
      unfold kernelRun6.sl.H7_6
      by_cases hb5 : 2560 ≤ cc.val
      · have hj : cc.val - 2560 < 512 := by omega
        have hcj : cc.val = 2560 + (⟨cc.val - 2560, hj⟩ : Fin 512).val := by
          show cc.val = 2560 + (cc.val - 2560)
          omega
        rw [StepLib.read_cols_mem (o := 2560) _ _ _ _ _ cc rfl ⟨cc.val - 2560, hj⟩ hcj, pay29_apply, hr]
        refine tileCol_eq x 5 (by norm_num) x0 _ _ _ cc ⟨cc.val - 2560, hj⟩ (by simp only [blk]; omega) hx0'
          (fun k => hxm 2560 (by norm_num) _ _ k cc hcj) hsq2 (Eq.trans ?_ (hs4 cc))
        unfold kernelRun6.sl.v148_4
        rw [StepLib.readAt_cols (o := 2560) _ _ _ rfl ⟨cc.val - 2560, hj⟩ cc hcj, B.h7.read_unread]
      · rw [StepLib.read_cols_not_mem (m1 := 512) (o := 2560) _ _ _ _ _ cc rfl (Or.inl (by omega))]
        by_cases hb4 : 2048 ≤ cc.val
        · have hj : cc.val - 2048 < 512 := by omega
          have hcj : cc.val = 2048 + (⟨cc.val - 2048, hj⟩ : Fin 512).val := by
            show cc.val = 2048 + (cc.val - 2048)
            omega
          rw [StepLib.read_cols_mem (o := 2048) _ _ _ _ _ cc rfl ⟨cc.val - 2048, hj⟩ hcj, pay26_apply, hr]
          refine tileCol_eq x 5 (by norm_num) x0 _ _ _ cc ⟨cc.val - 2048, hj⟩ (by simp only [blk]; omega) hx0'
            (fun k => hxm 2048 (by norm_num) _ _ k cc hcj) hsq2 (Eq.trans ?_ (hs4 cc))
          unfold kernelRun6.sl.v148_3
          rw [StepLib.readAt_cols (o := 2048) _ _ _ rfl ⟨cc.val - 2048, hj⟩ cc hcj, B.h7.read_unread]
        · rw [StepLib.read_cols_not_mem (m1 := 512) (o := 2048) _ _ _ _ _ cc rfl (Or.inl (by omega))]
          by_cases hb3 : 1536 ≤ cc.val
          · have hj : cc.val - 1536 < 512 := by omega
            have hcj : cc.val = 1536 + (⟨cc.val - 1536, hj⟩ : Fin 512).val := by
              show cc.val = 1536 + (cc.val - 1536)
              omega
            rw [StepLib.read_cols_mem (o := 1536) _ _ _ _ _ cc rfl ⟨cc.val - 1536, hj⟩ hcj, pay23_apply, hr]
            refine tileCol_eq x 5 (by norm_num) x0 _ _ _ cc ⟨cc.val - 1536, hj⟩ (by simp only [blk]; omega) hx0'
              (fun k => hxm 1536 (by norm_num) _ _ k cc hcj) hsq2 (Eq.trans ?_ (hs4 cc))
            unfold kernelRun6.sl.v148_2
            rw [StepLib.readAt_cols (o := 1536) _ _ _ rfl ⟨cc.val - 1536, hj⟩ cc hcj, B.h7.read_unread]
          · rw [StepLib.read_cols_not_mem (m1 := 512) (o := 1536) _ _ _ _ _ cc rfl (Or.inl (by omega))]
            by_cases hb2 : 1024 ≤ cc.val
            · have hj : cc.val - 1024 < 512 := by omega
              have hcj : cc.val = 1024 + (⟨cc.val - 1024, hj⟩ : Fin 512).val := by
                show cc.val = 1024 + (cc.val - 1024)
                omega
              rw [StepLib.read_cols_mem (o := 1024) _ _ _ _ _ cc rfl ⟨cc.val - 1024, hj⟩ hcj, pay20_apply, hX]
              refine tileCol_eq x 5 (by norm_num) x0 _ _ _ cc ⟨cc.val - 1024, hj⟩ (by simp only [blk]; omega) hx0'
                (fun k => hxm 1024 (by norm_num) _ _ k cc hcj) hsq8 (Eq.trans ?_ (hs4 cc))
              unfold kernelRun6.sl.v148_1
              rw [StepLib.readAt_cols (o := 1024) _ _ _ rfl ⟨cc.val - 1024, hj⟩ cc hcj, B.h7.read_unread]
            · rw [StepLib.read_cols_not_mem (m1 := 512) (o := 1024) _ _ _ _ _ cc rfl (Or.inl (by omega))]
              by_cases hb1 : 512 ≤ cc.val
              · have hj : cc.val - 512 < 512 := by omega
                have hcj : cc.val = 512 + (⟨cc.val - 512, hj⟩ : Fin 512).val := by
                  show cc.val = 512 + (cc.val - 512)
                  omega
                rw [StepLib.read_cols_mem (o := 512) _ _ _ _ _ cc rfl ⟨cc.val - 512, hj⟩ hcj, pay17_apply, hX]
                refine tileCol_eq x 5 (by norm_num) x0 _ _ _ cc ⟨cc.val - 512, hj⟩ (by simp only [blk]; omega) hx0'
                  (fun k => hxm 512 (by norm_num) _ _ k cc hcj) hsq8 (Eq.trans ?_ (hs4 cc))
                unfold kernelRun6.sl.v148
                rw [StepLib.readAt_cols (o := 512) _ _ _ rfl ⟨cc.val - 512, hj⟩ cc hcj, B.h7.read_unread]
              · rw [StepLib.read_cols_not_mem (m1 := 512) (o := 512) _ _ _ _ _ cc rfl (Or.inl (by omega))]
                have hj : cc.val - 0 < 512 := by omega
                have hcj : cc.val = 0 + (⟨cc.val - 0, hj⟩ : Fin 512).val := by
                  show cc.val = 0 + (cc.val - 0)
                  omega
                rw [StepLib.read_cols_mem (o := 0) _ _ _ _ _ cc rfl ⟨cc.val - 0, hj⟩ hcj, pay14_apply, hX]
                refine tileCol_eq x 5 (by norm_num) x0 _ _ _ cc ⟨cc.val - 0, hj⟩ (by simp only [blk]; omega) hx0'
                  (fun k => hxm 0 (by norm_num) _ _ k cc hcj) hsq8 (Eq.trans ?_ (hs4 cc))
                rw [StepLib.readAt_cols (o := 0) _ _ _ rfl ⟨cc.val - 0, hj⟩ cc hcj, B.h7.read_unread]
    · by_cases h6 : cc.val < 3328
      · obtain ⟨q, rfl⟩ : ∃ q : Fin 256, cc = row6 (lo q) :=
          ⟨⟨cc.val - 3072, by omega⟩, Fin.ext (by show cc.val = 512 * 6 + (cc.val - 3072); omega)⟩
        rw [StepLib.read_cols_mem _ _ _ _ _ (row6 (lo q)) o12 q rfl, pay37_apply]
        refine (congrArg₂ min (?_ : _ = (⊤ : EReal)) (diagCol_eq x 6 (by norm_num) x0 _ _ _ (row6 (lo q)) q rfl hx0' hxm1 hsq2
          (fun p => by unfold kernelRun6.sl.r_4; rw [pay34_apply, hr]))).trans (min_eq_right le_top)
        rw [StepLib.readAt_cols _ _ _ o12 q (row6 (lo q)) rfl, M7 _ _ (by show 3072 ≤ 512 * 6 + q.val; omega),
          B.h7.read_unread, hs4, colSetG_empty 5 _ (by simp only [blk]; omega), Finset.inf_empty]
      · have e : colSetG 6 cc = colSetG 5 cc := colSetG_succ_rest 5 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Step7.lean ====
import proofs.«108340_g74552042324289_cont_9to1_m_1244_4_alg».proof.Proof.Pay
import proofs.«108340_g74552042324289_cont_9to1_m_1244_4_alg».proof.Proof.StepLibG

set_option maxRecDepth 16384

noncomputable section

namespace Cert.KernelIdeal.Gen

open Idealize.ShloMosaic Cert.KoLeo Idealize.ShloMosaic.ValueIdx Cert.KernelIdeal.Pay Cert.KernelIdeal.StepLib

abbrev row7 (j : Fin 512) : Fin 4096 := ⟨512 * 7 + j.val, by omega⟩

theorem inv_step7 (c : Dev nD) (B : Ops)
    (hc1 : ¬cond1 (grid0.coords t0_7)) (hc2 : k0_cond2 (grid0.coords t0_7) = 1#1) (hc3 : k0_cond3 (grid0.coords t0_7) = 1#1) (hc4 : k0_cond4 (grid0.coords t0_7) = 1#1) (hc5 : k0_cond5 (grid0.coords t0_7) = 1#1) (hc6 : k0_cond6 (grid0.coords t0_7) = 1#1) (hc7 : k0_cond7 (grid0.coords t0_7) = 1#1) (hc8 : k0_cond8 (grid0.coords t0_7) = 1#1) (hc9 : k0_cond9 (grid0.coords t0_7) = 1#1)
    (x : Mat) (x0 : Vec Ideal S512x1024 .f32)
    (hx0 : ∀ (p : Fin 512) (k : Fin 1024), x0 (ix2 p k) = x ⟨512 * 7 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 6 (St.ofVecs s0 s1 s2 s3 s4)) :
    Inv x 7 (stOf (kernelRun7 (F := Ideal) c (grid0.coords t0_7) B hc1 hc2 hc3 hc4 hc5 hc6 hc7 hc8 hc9 x0 s0 s1 s2 s3 s4).2) := by
  have o1 : k0_off1 (grid0.coords t0_7) = ![3584, 0] := by decide
  have o2 : k0_off2 (grid0.coords t0_7) = ![3584, 0] := by decide
  have o3 : k0_off3 (grid0.coords t0_7) = ![0, 3584] := by decide
  have hX := load_x0 B.a1 B.h1 x0
  have hs0 : ∀ (rr : Fin 4096) (k : Fin 1024), blk rr ≤ 6 → s0 (ix2 rr k) = MTWO * x rr k := hinv.xm2
  have hs1 : ∀ rr : Fin 4096, blk rr ≤ 6 → s1 (ix2 rr 0) = sqn x rr := hinv.sqr
  have hs2 : ∀ rr : Fin 4096, blk rr ≤ 6 → s2 (ix2 0 rr) = sqn x rr := hinv.sqc
  have hs3 : ∀ (rr : Fin 4096) (l : Fin 128), s3 (ix2 rr l) = (rowSetL 6 rr l).inf (T1 x rr) := hinv.racc
  have hs4 : ∀ cc : Fin 4096, s4 (ix2 0 cc) = (colSetG 6 cc).inf (fun r' => T2 x r' cc) := hinv.cacc
  have hx0' : ∀ (p : Fin 512) (k : Fin 1024), x0 (ix2 p k) = x (row7 p) k := hx0
  have blkcase : ∀ r : Fin 4096, blk r = 7 → ∃ p : Fin 512, r = row7 p := fun r hb =>
    ⟨⟨r.val - 3584, by have := r.isLt; simp only [blk] at hb; omega⟩, Fin.ext (by
      simp only [blk] at hb
      show r.val = 512 * 7 + (r.val - 3584)
      omega)⟩
  have o4 : k0_off4 (grid0.coords t0_7) = ![3584, 0] := by decide
  have o5 : k0_off5 (grid0.coords t0_7) = ![3584, 0] := by decide
  have o6 : k0_off6 (grid0.coords t0_7) = ![3584, 0] := by decide
  have o7 : k0_off7 (grid0.coords t0_7) = ![3584, 0] := by decide
  have o8 : k0_off8 (grid0.coords t0_7) = ![3584, 0] := by decide
  have o9 : k0_off9 (grid0.coords t0_7) = ![3584, 0] := by decide
  have o10 : k0_off10 (grid0.coords t0_7) = ![3584, 0] := by decide
  have o11a : k0_off11 (grid0.coords t0_7) 0#32 = ![3584, 0] := by decide
  have o11b : k0_off11 (grid0.coords t0_7) 256#32 = ![3840, 0] := by decide
  have o12 : k0_off12 (grid0.coords t0_7) = ![0, 3584] := by decide
  have hr : kernelRun7.sl.r (F := Ideal) c B x0 = x0 := by
    unfold kernelRun7.sl.r
    rw [hX, pay5_eq]
  have hxm1 : ∀ (j : Fin 512) (k : Fin 1024), kernelRun7.sl.r_1 (F := Ideal) c B x0 (ix2 j k) = MTWO * x (row7 j) k := by
    intro j k
    unfold kernelRun7.sl.r_1
    rw [hX, pay6_apply, hx0']
  have hsq2 : ∀ j : Fin 512, kernelRun7.sl.r_2 (F := Ideal) c B x0 (ix2 j 0) = sqn x (row7 j) := by
    intro j
    unfold kernelRun7.sl.r_2
    rw [hX, pay8_apply]
    exact rowsq_eq x x0 j (row7 j) (hx0' j)
  have hsq3 : ∀ j : Fin 512, kernelRun7.sl.r_3 (F := Ideal) c B x0 (ix2 0 j) = sqn x (row7 j) := by
    intro j
    unfold kernelRun7.sl.r_3
    rw [hX, pay9_apply]
    exact rowsq_eq x x0 j (row7 j) (hx0' j)
  have hxm : ∀ (o : ℕ) (ho : o + 512 ≤ 3584) (inb3 : ∀ a, (![o, 0] : Fin 2 → ℕ) a + S512x1024.size a ≤ S4096x1024.size a)
      (j : Fin 512) (k : Fin 1024) (cj : Fin 4096) (hcj : cj.val = o + j.val),
      View.readAt (Elt Ideal) B.a3.view (Rect.unit (s := S4096x1024) ![o, 0] S512x1024.size inb3).toLoadRect
        (B.a3.view.writes (Elt Ideal) (B.h3.unread s0) (kernelRun7.sl.H3_1 (F := Ideal) c (grid0.coords t0_7) B x0)) (ix2 j k) = MTWO * x cj k := by
    intro o ho inb3 j k cj hcj
    rw [StepLib.readAt_rows _ _ _ rfl j k cj hcj]
    unfold kernelRun7.sl.H3_1
    rw [StepLib.read_rows_not_mem (m0 := 512) _ _ _ _ _ cj k o1 (Or.inl (by omega)), View.writes_nil, B.h3.read_unread]
    exact hs0 cj k (by simp only [blk]; omega)
  have hsq : ∀ (o : ℕ) (ho : o + 512 ≤ 3584) (inb5 : ∀ a, (![0, o] : Fin 2 → ℕ) a + S1x512.size a ≤ S1x4096.size a)
      (j : Fin 512) (cj : Fin 4096) (hcj : cj.val = o + j.val),
      View.readAt (Elt Ideal) B.a5.view (Rect.unit (s := S1x4096) ![0, o] S1x512.size inb5).toLoadRect
        (B.a5.view.writes (Elt Ideal) (B.h5.unread s2) (kernelRun7.sl.H5_1 (F := Ideal) c (grid0.coords t0_7) B x0)) (ix2 0 j) = sqn x cj := by
    intro o ho inb5 j cj hcj
    rw [StepLib.readAt_cols _ _ _ rfl j cj hcj]
    unfold kernelRun7.sl.H5_1
    rw [StepLib.read_cols_not_mem (m1 := 512) _ _ _ _ _ cj o3 (Or.inl (by omega)), View.writes_nil, B.h5.read_unread]
    exact hs2 cj (by simp only [blk]; omega)
  have C1 : ∀ (f : B.a6.view.ty.Contents (Elt Ideal)) (p : Fin 512) (l : Fin 128),
      View.read (Elt Ideal) B.a6.view (B.a6.view.writes (Elt Ideal) f (kernelRun7.sl.H6_1 (F := Ideal) c (grid0.coords t0_7) B hc2 x0 s0 s2 s3)) (ix2 (row7 p) l)
        = (lanesBelow 1 l).inf (T1 x (row7 p)) := by
    intro f p l
    unfold kernelRun7.sl.H6_1
    rw [StepLib.read_rows_mem _ _ _ _ _ (row7 p) l o4 p rfl, pay13_apply, hX]
    refine tileRow_eq x 0 (by norm_num) x0 _ _ _ (row7 p) p l (hx0' p) (fun j k => hxm 0 (by norm_num) _ j k _ rfl)
      (fun j => hsq 0 (by norm_num) _ j _ rfl) ?_
    rw [StepLib.readAt_rows _ _ _ o4 p l (row7 p) rfl, B.h6.read_unread, hs3,
      rowSetL_empty 6 _ l (by simp only [blk]; omega), lanesBelow_zero]
  have C2 : ∀ (f : B.a6.view.ty.Contents (Elt Ideal)) (p : Fin 512) (l : Fin 128),
      View.read (Elt Ideal) B.a6.view (B.a6.view.writes (Elt Ideal) f (kernelRun7.sl.H6_2 (F := Ideal) c (grid0.coords t0_7) B hc2 hc3 x0 s0 s2 s3)) (ix2 (row7 p) l)
        = (lanesBelow 2 l).inf (T1 x (row7 p)) := by
    intro f p l
    unfold kernelRun7.sl.H6_2
    rw [StepLib.read_rows_mem _ _ _ _ _ (row7 p) l o5 p rfl, pay16_apply, hX]
    refine tileRow_eq x 1 (by norm_num) x0 _ _ _ (row7 p) p l (hx0' p) (fun j k => hxm 512 (by norm_num) _ j k _ rfl)
      (fun j => hsq 512 (by norm_num) _ j _ rfl) ?_
    unfold kernelRun7.sl.v133
    rw [StepLib.readCov_rows _ _ _ o5 p l (row7 p) rfl]
    exact C1 _ p l
  have C3 : ∀ (f : B.a6.view.ty.Contents (Elt Ideal)) (p : Fin 512) (l : Fin 128),
      View.read (Elt Ideal) B.a6.view (B.a6.view.writes (Elt Ideal) f (kernelRun7.sl.H6_3 (F := Ideal) c (grid0.coords t0_7) B hc2 hc3 hc4 x0 s0 s2 s3)) (ix2 (row7 p) l)
        = (lanesBelow 3 l).inf (T1 x (row7 p)) := by
    intro f p l
    unfold kernelRun7.sl.H6_3
    rw [StepLib.read_rows_mem _ _ _ _ _ (row7 p) l o6 p rfl, pay19_apply, hX]
    refine tileRow_eq x 2 (by norm_num) x0 _ _ _ (row7 p) p l (hx0' p) (fun j k => hxm 1024 (by norm_num) _ j k _ rfl)
      (fun j => hsq 1024 (by norm_num) _ j _ rfl) ?_
    unfold kernelRun7.sl.v133_1
    rw [StepLib.readCov_rows _ _ _ o6 p l (row7 p) rfl]
    exact C2 _ p l
  have C4 : ∀ (f : B.a6.view.ty.Contents (Elt Ideal)) (p : Fin 512) (l : Fin 128),
      View.read (Elt Ideal) B.a6.view (B.a6.view.writes (Elt Ideal) f (kernelRun7.sl.H6_4 (F := Ideal) c (grid0.coords t0_7) B hc2 hc3 hc4 hc5 x0 s0 s2 s3)) (ix2 (row7 p) l)
        = (lanesBelow 4 l).inf (T1 x (row7 p)) := by
    intro f p l
    unfold kernelRun7.sl.H6_4
    rw [StepLib.read_rows_mem _ _ _ _ _ (row7 p) l o7 p rfl, pay22_apply, hr]
    refine tileRow_eq x 3 (by norm_num) x0 _ _ _ (row7 p) p l (hx0' p) (fun j k => hxm 1536 (by norm_num) _ j k _ rfl)
      (fun j => hsq 1536 (by norm_num) _ j _ rfl) ?_
    unfold kernelRun7.sl.v133_2
    rw [StepLib.readCov_rows _ _ _ o7 p l (row7 p) rfl]
    exact C3 _ p l
  have C5 : ∀ (f : B.a6.view.ty.Contents (Elt Ideal)) (p : Fin 512) (l : Fin 128),
      View.read (Elt Ideal) B.a6.view (B.a6.view.writes (Elt Ideal) f (kernelRun7.sl.H6_5 (F := Ideal) c (grid0.coords t0_7) B hc2 hc3 hc4 hc5 hc6 x0 s0 s2 s3)) (ix2 (row7 p) l)
        = (lanesBelow 5 l).inf (T1 x (row7 p)) := by
    intro f p l
    unfold kernelRun7.sl.H6_5
    rw [StepLib.read_rows_mem _ _ _ _ _ (row7 p) l o8 p rfl, pay25_apply, hr]
    refine tileRow_eq x 4 (by norm_num) x0 _ _ _ (row7 p) p l (hx0' p) (fun j k => hxm 2048 (by norm_num) _ j k _ rfl)
      (fun j => hsq 2048 (by norm_num) _ j _ rfl) ?_
    unfold kernelRun7.sl.v133_3
    rw [StepLib.readCov_rows _ _ _ o8 p l (row7 p) rfl]
    exact C4 _ p l
  have C6 : ∀ (f : B.a6.view.ty.Contents (Elt Ideal)) (p : Fin 512) (l : Fin 128),
      View.read (Elt Ideal) B.a6.view (B.a6.view.writes (Elt Ideal) f (kernelRun7.sl.H6_6 (F := Ideal) c (grid0.coords t0_7) B hc2 hc3 hc4 hc5 hc6 hc7 x0 s0 s2 s3)) (ix2 (row7 p) l)
        = (lanesBelow 6 l).inf (T1 x (row7 p)) := by
    intro f p l
    unfold kernelRun7.sl.H6_6
    rw [StepLib.read_rows_mem _ _ _ _ _ (row7 p) l o9 p rfl, pay28_apply, hr]
    refine tileRow_eq x 5 (by norm_num) x0 _ _ _ (row7 p) p l (hx0' p) (fun j k => hxm 2560 (by norm_num) _ j k _ rfl)
      (fun j => hsq 2560 (by norm_num) _ j _ rfl) ?_
    unfold kernelRun7.sl.v133_4
    rw [StepLib.readCov_rows _ _ _ o9 p l (row7 p) rfl]
    exact C5 _ p l
  have C7 : ∀ (f : B.a6.view.ty.Contents (Elt Ideal)) (p : Fin 512) (l : Fin 128),
      View.read (Elt Ideal) B.a6.view (B.a6.view.writes (Elt Ideal) f (kernelRun7.sl.H6_7 (F := Ideal) c (grid0.coords t0_7) B hc2 hc3 hc4 hc5 hc6 hc7 hc8 x0 s0 s2 s3)) (ix2 (row7 p) l)
        = (lanesBelow 7 l).inf (T1 x (row7 p)) := by
    intro f p l
    unfold kernelRun7.sl.H6_7
    rw [StepLib.read_rows_mem _ _ _ _ _ (row7 p) l o10 p rfl, pay31_apply, hr]
    refine tileRow_eq x 6 (by norm_num) x0 _ _ _ (row7 p) p l (hx0' p) (fun j k => hxm 3072 (by norm_num) _ j k _ rfl)
      (fun j => hsq 3072 (by norm_num) _ j _ rfl) ?_
    unfold kernelRun7.sl.v133_5
    rw [StepLib.readCov_rows _ _ _ o10 p l (row7 p) rfl]
    exact C6 _ p l
  refine ⟨?_, ?_, ?_, ?_, ?_⟩
  · intro r k h
    dsimp only [stOf, St.ofVecs, kernelRun7]
    unfold kernelRun7.sl.H3_1
    by_cases hb : blk r = 7
    · obtain ⟨p, rfl⟩ := blkcase r hb
      rw [StepLib.read_rows_mem _ _ _ _ _ (row7 p) k o1 p rfl, hX, pay7_apply, hx0']
    · rw [StepLib.read_rows_not_mem (m0 := 512) _ _ _ _ _ r k o1 (by simp only [blk] at hb h; omega), View.writes_nil, B.h3.read_unread]
      exact hs0 r k (by omega)
  · intro r h
    dsimp only [stOf, St.ofVecs, kernelRun7]
    unfold kernelRun7.sl.H4_1
    by_cases hb : blk r = 7
    · obtain ⟨p, rfl⟩ := blkcase r hb
      rw [StepLib.read_rows_mem _ _ _ _ _ (row7 p) 0 o2 p rfl, hX, pay10_apply]
      exact rowsq_eq x x0 p (row7 p) (hx0' p)
    · rw [StepLib.read_rows_not_mem (m0 := 512) _ _ _ _ _ r 0 o2 (by simp only [blk] at hb h; omega), View.writes_nil, B.h4.read_unread]
      exact hs1 r (by omega)
  · intro r h
    dsimp only [stOf, St.ofVecs, kernelRun7]
    unfold kernelRun7.sl.H5_1
    by_cases hb : blk r = 7
    · obtain ⟨p, rfl⟩ := blkcase r hb
      rw [StepLib.read_cols_mem _ _ _ _ _ (row7 p) o3 p rfl, hX, pay11_apply]
      exact rowsq_eq x x0 p (row7 p) (hx0' p)
    · rw [StepLib.read_cols_not_mem (m1 := 512) _ _ _ _ _ r o3 (by simp only [blk] at hb h; omega), View.writes_nil,
        B.h5.read_unread]
      exact hs2 r (by omega)
  · intro r l
    dsimp only [stOf, St.ofVecs, kernelRun7]
    unfold kernelRun7.sl.H6_10
    by_cases hb : blk r = 7
    · obtain ⟨p', rfl⟩ := blkcase r hb
      by_cases hh : p'.val < 256
      · obtain ⟨p, rfl⟩ : ∃ p : Fin 256, p' = lo p := ⟨⟨p'.val, hh⟩, rfl⟩
        have hlt : (row7 (lo p)).val < 3840 ∨ 3840 + 256 ≤ (row7 (lo p)).val :=
          Or.inl (by show 512 * 7 + p.val < 3840; omega)
        rw [StepLib.read_rows_not_mem (m0 := 256) _ _ _ _ _ (row7 (lo p)) l o11b hlt]
        unfold kernelRun7.sl.H6_9
        rw [StepLib.read_rows_not_mem (m0 := 256) _ _ _ _ _ (row7 (lo p)) l o11b hlt]
        unfold kernelRun7.sl.H6_8
        rw [StepLib.read_rows_mem _ _ _ _ _ (row7 (lo p)) l o11a p rfl, pay33_apply, hr]
        refine diagLower_eq x 7 (by norm_num) x0 _ _ _ (row7 (lo p)) p l rfl hx0' hxm1 hsq3 ?_
        unfold kernelRun7.sl.v60
        rw [StepLib.readCov_rows _ _ _ o11a p l (row7 (lo p)) rfl]
        exact C7 _ (lo p) l
      · obtain ⟨p, rfl⟩ : ∃ p : Fin 256, p' = up p :=
          ⟨⟨p'.val - 256, by omega⟩, Fin.ext (by show p'.val = 256 + (p'.val - 256); omega)⟩
        have hrow : (row7 (up p)).val = 3840 + p.val := by
          show 512 * 7 + (256 + p.val) = 3840 + p.val
          omega
        rw [StepLib.read_rows_mem _ _ _ _ _ (row7 (up p)) l o11b p hrow, pay1_eq]
        unfold kernelRun7.sl.r_6
        rw [pay38_apply, hr]
        unfold kernelRun7.sl.v115
        rw [StepLib.readCov_rows _ _ _ o11b p l (row7 (up p)) hrow]
        unfold kernelRun7.sl.H6_9
        rw [StepLib.read_rows_mem _ _ _ _ _ (row7 (up p)) l o11b p hrow, pay36_apply]
        unfold kernelRun7.sl.r_5
        rw [pay35_apply, pay35_apply, hr]
        refine diagUpper_eq x 7 (by norm_num) x0 _ _ _ _ _ (row7 (up p)) p l rfl hx0' hxm1 hsq3 ?_ rfl rfl
        unfold kernelRun7.sl.v78
        rw [StepLib.readCov_rows _ _ _ o11b p l (row7 (up p)) hrow]
        unfold kernelRun7.sl.H6_8
        rw [StepLib.read_rows_not_mem (m0 := 256) _ _ _ _ _ (row7 (up p)) l o11a (Or.inr (by omega))]
        exact C7 _ (up p) l
    · have hmiss : r.val < 3584 ∨ 4096 ≤ r.val := by simp only [blk] at hb; omega
      rw [StepLib.read_rows_not_mem (m0 := 256) _ _ _ _ _ r l o11b (by omega)]
      unfold kernelRun7.sl.H6_9
      rw [StepLib.read_rows_not_mem (m0 := 256) _ _ _ _ _ r l o11b (by omega)]
      unfold kernelRun7.sl.H6_8
      rw [StepLib.read_rows_not_mem (m0 := 256) _ _ _ _ _ r l o11a (by omega)]
      unfold kernelRun7.sl.H6_7
      rw [StepLib.read_rows_not_mem (m0 := 512) _ _ _ _ _ r l o10 (by omega)]
      unfold kernelRun7.sl.H6_6
      rw [StepLib.read_rows_not_mem (m0 := 512) _ _ _ _ _ r l o9 (by omega)]
      unfold kernelRun7.sl.H6_5
      rw [StepLib.read_rows_not_mem (m0 := 512) _ _ _ _ _ r l o8 (by omega)]
      unfold kernelRun7.sl.H6_4
      rw [StepLib.read_rows_not_mem (m0 := 512) _ _ _ _ _ r l o7 (by omega)]
      unfold kernelRun7.sl.H6_3
      rw [StepLib.read_rows_not_mem (m0 := 512) _ _ _ _ _ r l o6 (by omega)]
      unfold kernelRun7.sl.H6_2
      rw [StepLib.read_rows_not_mem (m0 := 512) _ _ _ _ _ r l o5 (by omega)]
      unfold kernelRun7.sl.H6_1
      rw [StepLib.read_rows_not_mem (m0 := 512) _ _ _ _ _ r l o4 (by omega), View.writes_nil, B.h6.read_unread, hs3, rowSetL_succ_of_ne 6 r l hb]
  · intro cc
    have := cc.isLt
    dsimp only [stOf, St.ofVecs, kernelRun7]
    unfold kernelRun7.sl.H7_8
    have hsq8 : ∀ p : Fin 512, k0_pay8 (F := Ideal) x0 (ix2 p 0) = sqn x (row7 p) := by
      intro p
      rw [pay8_apply]
      exact rowsq_eq x x0 p (row7 p) (hx0' p)
    have M7 : ∀ (f : B.a7.view.ty.Contents (Elt Ideal)) (cc : Fin 4096), 3584 ≤ cc.val →
        View.read (Elt Ideal) B.a7.view (B.a7.view.writes (Elt Ideal) f (kernelRun7.sl.H7_7 (F := Ideal) c (grid0.coords t0_7) B x0 s0 s4)) (ix2 0 cc)
          = View.read (Elt Ideal) B.a7.view f (ix2 0 cc) := by
      intro f cc h
      unfold kernelRun7.sl.H7_7
      rw [StepLib.read_cols_not_mem (m1 := 512) (o := 3072) _ _ _ _ _ cc rfl (Or.inr (by omega)),
        StepLib.read_cols_not_mem (m1 := 512) (o := 2560) _ _ _ _ _ cc rfl (Or.inr (by omega)),
        StepLib.read_cols_not_mem (m1 := 512) (o := 2048) _ _ _ _ _ cc rfl (Or.inr (by omega)),
        StepLib.read_cols_not_mem (m1 := 512) (o := 1536) _ _ _ _ _ cc rfl (Or.inr (by omega)),
        StepLib.read_cols_not_mem (m1 := 512) (o := 1024) _ _ _ _ _ cc rfl (Or.inr (by omega)),
        StepLib.read_cols_not_mem (m1 := 512) (o := 512) _ _ _ _ _ cc rfl (Or.inr (by omega)),
        StepLib.read_cols_not_mem (m1 := 512) (o := 0) _ _ _ _ _ cc rfl (Or.inr (by omega)), View.writes_nil]
    by_cases h5 : cc.val < 3584
    · rw [StepLib.read_cols_not_mem (m1 := 256) _ _ _ _ _ cc o12 (Or.inl h5)]
      unfold kernelRun7.sl.H7_7
      by_cases hb6 : 3072 ≤ cc.val
      · have hj : cc.val - 3072 < 512 := by omega
        have hcj : cc.val = 3072 + (⟨cc.val - 3072, hj⟩ : Fin 512).val := by
          show cc.val = 3072 + (cc.val - 3072)
          omega
        rw [StepLib.read_cols_mem (o := 3072) _ _ _ _ _ cc rfl ⟨cc.val - 3072, hj⟩ hcj, pay32_apply, hr]
        refine tileCol_eq x 6 (by norm_num) x0 _ _ _ cc ⟨cc.val - 3072, hj⟩ (by simp only [blk]; omega) hx0'
          (fun k => hxm 3072 (by norm_num) _ _ k cc hcj) hsq2 (Eq.trans ?_ (hs4 cc))
        unfold kernelRun7.sl.v148_5
        rw [StepLib.readAt_cols (o := 3072) _ _ _ rfl ⟨cc.val - 3072, hj⟩ cc hcj, B.h7.read_unread]
      · rw [StepLib.read_cols_not_mem (m1 := 512) (o := 3072) _ _ _ _ _ cc rfl (Or.inl (by omega))]
        by_cases hb5 : 2560 ≤ cc.val
        · have hj : cc.val - 2560 < 512 := by omega
          have hcj : cc.val = 2560 + (⟨cc.val - 2560, hj⟩ : Fin 512).val := by
            show cc.val = 2560 + (cc.val - 2560)
            omega
          rw [StepLib.read_cols_mem (o := 2560) _ _ _ _ _ cc rfl ⟨cc.val - 2560, hj⟩ hcj, pay29_apply, hr]
          refine tileCol_eq x 6 (by norm_num) x0 _ _ _ cc ⟨cc.val - 2560, hj⟩ (by simp only [blk]; omega) hx0'
            (fun k => hxm 2560 (by norm_num) _ _ k cc hcj) hsq2 (Eq.trans ?_ (hs4 cc))
          unfold kernelRun7.sl.v148_4
          rw [StepLib.readAt_cols (o := 2560) _ _ _ rfl ⟨cc.val - 2560, hj⟩ cc hcj, B.h7.read_unread]
        · rw [StepLib.read_cols_not_mem (m1 := 512) (o := 2560) _ _ _ _ _ cc rfl (Or.inl (by omega))]
          by_cases hb4 : 2048 ≤ cc.val
          · have hj : cc.val - 2048 < 512 := by omega
            have hcj : cc.val = 2048 + (⟨cc.val - 2048, hj⟩ : Fin 512).val := by
              show cc.val = 2048 + (cc.val - 2048)
              omega
            rw [StepLib.read_cols_mem (o := 2048) _ _ _ _ _ cc rfl ⟨cc.val - 2048, hj⟩ hcj, pay26_apply, hr]
            refine tileCol_eq x 6 (by norm_num) x0 _ _ _ cc ⟨cc.val - 2048, hj⟩ (by simp only [blk]; omega) hx0'
              (fun k => hxm 2048 (by norm_num) _ _ k cc hcj) hsq2 (Eq.trans ?_ (hs4 cc))
            unfold kernelRun7.sl.v148_3
            rw [StepLib.readAt_cols (o := 2048) _ _ _ rfl ⟨cc.val - 2048, hj⟩ cc hcj, B.h7.read_unread]
          · rw [StepLib.read_cols_not_mem (m1 := 512) (o := 2048) _ _ _ _ _ cc rfl (Or.inl (by omega))]
            by_cases hb3 : 1536 ≤ cc.val
            · have hj : cc.val - 1536 < 512 := by omega
              have hcj : cc.val = 1536 + (⟨cc.val - 1536, hj⟩ : Fin 512).val := by
                show cc.val = 1536 + (cc.val - 1536)
                omega
              rw [StepLib.read_cols_mem (o := 1536) _ _ _ _ _ cc rfl ⟨cc.val - 1536, hj⟩ hcj, pay23_apply, hr]
              refine tileCol_eq x 6 (by norm_num) x0 _ _ _ cc ⟨cc.val - 1536, hj⟩ (by simp only [blk]; omega) hx0'
                (fun k => hxm 1536 (by norm_num) _ _ k cc hcj) hsq2 (Eq.trans ?_ (hs4 cc))
              unfold kernelRun7.sl.v148_2
              rw [StepLib.readAt_cols (o := 1536) _ _ _ rfl ⟨cc.val - 1536, hj⟩ cc hcj, B.h7.read_unread]
            · rw [StepLib.read_cols_not_mem (m1 := 512) (o := 1536) _ _ _ _ _ cc rfl (Or.inl (by omega))]
              by_cases hb2 : 1024 ≤ cc.val
              · have hj : cc.val - 1024 < 512 := by omega
                have hcj : cc.val = 1024 + (⟨cc.val - 1024, hj⟩ : Fin 512).val := by
                  show cc.val = 1024 + (cc.val - 1024)
                  omega
                rw [StepLib.read_cols_mem (o := 1024) _ _ _ _ _ cc rfl ⟨cc.val - 1024, hj⟩ hcj, pay20_apply, hX]
                refine tileCol_eq x 6 (by norm_num) x0 _ _ _ cc ⟨cc.val - 1024, hj⟩ (by simp only [blk]; omega) hx0'
                  (fun k => hxm 1024 (by norm_num) _ _ k cc hcj) hsq8 (Eq.trans ?_ (hs4 cc))
                unfold kernelRun7.sl.v148_1
                rw [StepLib.readAt_cols (o := 1024) _ _ _ rfl ⟨cc.val - 1024, hj⟩ cc hcj, B.h7.read_unread]
              · rw [StepLib.read_cols_not_mem (m1 := 512) (o := 1024) _ _ _ _ _ cc rfl (Or.inl (by omega))]
                by_cases hb1 : 512 ≤ cc.val
                · have hj : cc.val - 512 < 512 := by omega
                  have hcj : cc.val = 512 + (⟨cc.val - 512, hj⟩ : Fin 512).val := by
                    show cc.val = 512 + (cc.val - 512)
                    omega
                  rw [StepLib.read_cols_mem (o := 512) _ _ _ _ _ cc rfl ⟨cc.val - 512, hj⟩ hcj, pay17_apply, hX]
                  refine tileCol_eq x 6 (by norm_num) x0 _ _ _ cc ⟨cc.val - 512, hj⟩ (by simp only [blk]; omega) hx0'
                    (fun k => hxm 512 (by norm_num) _ _ k cc hcj) hsq8 (Eq.trans ?_ (hs4 cc))
                  unfold kernelRun7.sl.v148
                  rw [StepLib.readAt_cols (o := 512) _ _ _ rfl ⟨cc.val - 512, hj⟩ cc hcj, B.h7.read_unread]
                · rw [StepLib.read_cols_not_mem (m1 := 512) (o := 512) _ _ _ _ _ cc rfl (Or.inl (by omega))]
                  have hj : cc.val - 0 < 512 := by omega
                  have hcj : cc.val = 0 + (⟨cc.val - 0, hj⟩ : Fin 512).val := by
                    show cc.val = 0 + (cc.val - 0)
                    omega
                  rw [StepLib.read_cols_mem (o := 0) _ _ _ _ _ cc rfl ⟨cc.val - 0, hj⟩ hcj, pay14_apply, hX]
                  refine tileCol_eq x 6 (by norm_num) x0 _ _ _ cc ⟨cc.val - 0, hj⟩ (by simp only [blk]; omega) hx0'
                    (fun k => hxm 0 (by norm_num) _ _ k cc hcj) hsq8 (Eq.trans ?_ (hs4 cc))
                  rw [StepLib.readAt_cols (o := 0) _ _ _ rfl ⟨cc.val - 0, hj⟩ cc hcj, B.h7.read_unread]
    · by_cases h6 : cc.val < 3840
      · obtain ⟨q, rfl⟩ : ∃ q : Fin 256, cc = row7 (lo q) :=
          ⟨⟨cc.val - 3584, by omega⟩, Fin.ext (by show cc.val = 512 * 7 + (cc.val - 3584); omega)⟩
        rw [StepLib.read_cols_mem _ _ _ _ _ (row7 (lo q)) o12 q rfl, pay37_apply]
        refine (congrArg₂ min (?_ : _ = (⊤ : EReal)) (diagCol_eq x 7 (by norm_num) x0 _ _ _ (row7 (lo q)) q rfl hx0' hxm1 hsq2
          (fun p => by unfold kernelRun7.sl.r_4; rw [pay34_apply, hr]))).trans (min_eq_right le_top)
        rw [StepLib.readAt_cols _ _ _ o12 q (row7 (lo q)) rfl, M7 _ _ (by show 3584 ≤ 512 * 7 + q.val; omega),
          B.h7.read_unread, hs4, colSetG_empty 6 _ (by simp only [blk]; omega), Finset.inf_empty]
      · have e : colSetG 7 cc = colSetG 6 cc := colSetG_succ_rest 6 cc (by simp only [blk, half]; omega)
        rw [StepLib.read_cols_not_mem (m1 := 256) _ _ _ _ _ cc o12 (Or.inr (by omega)), M7 _ cc (by omega),
          B.h7.read_unread, hs4, e]

end Cert.KernelIdeal.Gen

end
-- ==== Proof.Total.lean ====
import proofs.«108340_g74552042324289_cont_9to1_m_1244_4_alg».proof.Proof.Spec
import proofs.«108340_g74552042324289_cont_9to1_m_1244_4_alg».proof.Proof.Lits
import Mathlib.Data.Finset.Fold
import Mathlib.Data.Finset.Lattice.Union

noncomputable section

namespace Cert.KoLeo

open Idealize.ShloMosaic
open scoped BigOperators

/-- A fold of `min` from +∞ is the infimum: both are the greatest lower bound. -/
theorem fold_min_top_eq_inf {ι : Type} (s : Finset ι) (f : ι → EReal) : s.fold min ⊤ f = s.inf f := by
  apply le_antisymm
  · rw [Finset.le_inf_iff]
    intro i hi
    exact (Finset.fold_min_le (c := f i)).2 (Or.inr ⟨i, hi, le_rfl⟩)
  · rw [Finset.le_fold_min]
    exact ⟨le_top, fun i hi => Finset.inf_le hi⟩

theorem blk_le_seven (r : Fin 4096) : blk r ≤ 7 := by
  unfold blk
  have := r.isLt
  omega

theorem colSetG_seven (c : Fin 4096) : colSetG 7 c = colSet c := by
  unfold colSetG
  exact Finset.filter_true_of_mem fun r' _ => blk_le_seven r'

theorem biUnion_rowSetL_seven (r : Fin 4096) :
    (Finset.univ : Finset (Fin 128)).biUnion (rowSetL 7 r) = rowSet r := by
  ext c
  simp only [Finset.mem_biUnion, Finset.mem_univ, true_and, rowSetL, Finset.mem_filter]
  constructor
  · rintro ⟨l, hc, _⟩
    exact hc
  · intro hc
    exact ⟨⟨c.val % 128, Nat.mod_lt _ (by norm_num)⟩, hc, blk_le_seven r, rfl⟩

/-- After the last block the lanes' sets of a row join to the row's whole set, so the final reduction is the kernel's formula. -/
theorem total_of_inv (x : Mat) (s : St) (h : Inv x 7 s) :
    (∑ r : Fin 4096, Ideal.log (Ideal.sqrt (max (min ((Finset.univ : Finset (Fin 128)).fold min INF (s.racc r) + s.sqr r)
        (s.cacc r + s.sqc r)) ZERO) + EPS)) * MINV = Gker x := by
  unfold Gker
  congr 1
  refine Finset.sum_congr rfl fun r _ => ?_
  have hr : (Finset.univ : Finset (Fin 128)).fold min INF (s.racc r) = kerRowMin x r := by
    have e : s.racc r = fun l => (rowSetL 7 r l).inf (T1 x r) := funext fun l => h.racc r l
    rw [e, INF_eq, fold_min_top_eq_inf, ← Finset.inf_biUnion, biUnion_rowSetL_seven]
    rfl
  have hc : s.cacc r = kerColMin x r := by
    rw [h.cacc r, colSetG_seven]
    rfl
  rw [hr, hc, h.sqr r (blk_le_seven r), h.sqc r (blk_le_seven r)]
  rfl

end Cert.KoLeo

end
-- ==== Proof.OutLast.lean ====
import proofs.«108340_g74552042324289_cont_9to1_m_1244_4_alg».proof.Proof.Step7
import proofs.«108340_g74552042324289_cont_9to1_m_1244_4_alg».proof.Proof.Pay
import proofs.«108340_g74552042324289_cont_9to1_m_1244_4_alg».proof.Proof.Spec
import proofs.«108340_g74552042324289_cont_9to1_m_1244_4_alg».proof.Proof.Lits
import proofs.«108340_g74552042324289_cont_9to1_m_1244_4_alg».proof.Proof.Total
import Idealize.ShloMosaic.Lib.WritesUnit
import Idealize.ShloMosaic.Lib.Pipeline.FrameBody
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KoLeo Idealize.ShloMosaic.ValueIdx

namespace OutLastB

theorem load_whole {sig' : RefSig} {κ' : Kind} {sp' : Space} {S : Shape} {e' : EltTy} (v : View sig' κ' sp' S e')
    (f : v.ty.Contents (Elt Ideal)) {off : Fin S.rank → ℕ} (hoff : off = fun _ => 0) (inb : ∀ a, off a + S.size a ≤ S.size a) :
    v.readAt (Elt Ideal) (Rect.unit off S.size inb).toLoadRect f = v.read (Elt Ideal) f := by
  rw [View.readAt_eq_ld]
  exact View.ld_unit_zero hoff inb _

theorem zero2 : (![0, 0] : Fin 2 → ℕ) = fun _ => 0 := funext fun a => by fin_cases a <;> rfl

end OutLastB

/-- The last store into the output cell is the final reduction over a state satisfying the invariant after block 7. -/
theorem out_last (c : Dev nD) (B : Ops)
    (hc1 : ¬cond1 (grid0.coords t0_7)) (hc2 : k0_cond2 (grid0.coords t0_7) = 1#1) (hc3 : k0_cond3 (grid0.coords t0_7) = 1#1) (hc4 : k0_cond4 (grid0.coords t0_7) = 1#1) (hc5 : k0_cond5 (grid0.coords t0_7) = 1#1) (hc6 : k0_cond6 (grid0.coords t0_7) = 1#1) (hc7 : k0_cond7 (grid0.coords t0_7) = 1#1) (hc8 : k0_cond8 (grid0.coords t0_7) = 1#1) (hc9 : k0_cond9 (grid0.coords t0_7) = 1#1)
    (x : Mat) (x0 : Vec Ideal S512x1024 .f32)
    (hx0 : ∀ (p : Fin 512) (k : Fin 1024), x0 (ix2 p k) = x ⟨512 * 7 + p.val, by omega⟩ k)
    (s0 : Vec Ideal S4096x1024 .bf16) (s1 : Vec Ideal S4096x1 .f32) (s2 : Vec Ideal S1x4096 .f32)
    (s3 : Vec Ideal S4096x128 .f32) (s4 : Vec Ideal S1x4096 .f32)
    (hinv : Inv x 6 (St.ofVecs s0 s1 s2 s3 s4)) (f : B.a2.view.ty.Contents (Elt Ideal)) :
    B.a2.view.read (Elt Ideal) (B.a2.view.writes (Elt Ideal) f
      (kernelRun7 (F := Ideal) c (grid0.coords t0_7) B hc1 hc2 hc3 hc4 hc5 hc6 hc7 hc8 hc9 x0 s0 s1 s2 s3 s4).1)
      = fun _ => Gker x := by

  have hI := inv_step7 c B hc1 hc2 hc3 hc4 hc5 hc6 hc7 hc8 hc9 x x0 hx0 s0 s1 s2 s3 s4 hinv
  have hT := total_of_inv x _ hI

  dsimp only [kernelRun7]
  funext y
  refine (View.read_writes_cons_unit_of_mem (off := ![0, 0]) (off' := ![0, 0]) (size := ![1, 1]) B.a2.view f inb_S1x1_S1x1_0_0 _ [] y y rfl (Fin.forall_fin_two.mpr ⟨(Nat.zero_add _).symm, (Nat.zero_add _).symm⟩)).trans ?_
  rw [Pay.pay2_apply]
  unfold kernelRun7.sl.v127

  rw [OutLastB.load_whole B.a6.view _ OutLastB.zero2, OutLastB.load_whole B.a4.view _ OutLastB.zero2,
    OutLastB.load_whole B.a7.view _ OutLastB.zero2, OutLastB.load_whole B.a5.view _ OutLastB.zero2]
  simp only [stOf, St.ofVecs] at hT
  dsimp only [kernelRun7] at hT
  exact hT

end Cert.KernelIdeal.Gen

end
-- ==== Proof.ValueBody.lean ====
import proofs.«108340_g74552042324289_cont_9to1_m_1244_4_alg».proof.Proof.Step0
import proofs.«108340_g74552042324289_cont_9to1_m_1244_4_alg».proof.Proof.Step1
import proofs.«108340_g74552042324289_cont_9to1_m_1244_4_alg».proof.Proof.Step2
import proofs.«108340_g74552042324289_cont_9to1_m_1244_4_alg».proof.Proof.Step3
import proofs.«108340_g74552042324289_cont_9to1_m_1244_4_alg».proof.Proof.Step4
import proofs.«108340_g74552042324289_cont_9to1_m_1244_4_alg».proof.Proof.Step5
import proofs.«108340_g74552042324289_cont_9to1_m_1244_4_alg».proof.Proof.Step6
import proofs.«108340_g74552042324289_cont_9to1_m_1244_4_alg».proof.Proof.Step7
import proofs.«108340_g74552042324289_cont_9to1_m_1244_4_alg».proof.Proof.OutLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KoLeo Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

def xmat (c : Dev nD) : Mat := mat (V m c main_arg0)

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem blk_read (c : Dev nD) (t : Fin cfg0.N) (p : Fin 512) (k : Fin 1024) :
    iblk m c 0 t (ix2 p k) = xmat m c ⟨512 * t.val + p.val, by have := t.isLt; have h8 : cfg0.N = 8 := N_0; omega⟩ k := by
  obtain ⟨e0, e1⟩ := idx_facts0 t
  show V m c main_arg0 (((cfg0.win 0).blk t).view.emb (ix2 p k)) = V m c main_arg0 (ix2 ⟨512 * t.val + p.val, _⟩ k)
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = k.val; omega

def outv (c : Dev nD) : Vec Ideal S1x1 .f32 := fun _ => Gker (xmat m c)

/-- What is known of the scratch before position n: nothing at 0, then the invariant after block n − 1. -/
def Before (x : Mat) : ℕ → St → Prop
  | 0, _ => True
  | n + 1, s => Inv x n s

def PhiV (c : Dev nD) (n : ℕ) : sProp 𝕄 :=
  iprop(iprop(∃ s0 : Vec Ideal S4096x1024 .bf16, ∃ s1 : Vec Ideal S4096x1 .f32, ∃ s2 : Vec Ideal S1x4096 .f32,
    ∃ s3 : Vec Ideal S4096x128 .f32, ∃ s4 : Vec Ideal S1x4096 .f32,
      ⌜Before (xmat m c) n (St.ofVecs s0 s1 s2 s3 s4)⌝ ∗ owns (c : Thread nD τ) scM0 fullShare s0 ∗ owns (c : Thread nD τ) scM1 fullShare s1 ∗ owns (c : Thread nD τ) scM2 fullShare s2 ∗ owns (c : Thread nD τ) scM3 fullShare s3 ∗ owns (c : Thread nD τ) scM4 fullShare s4) ∗ (∃ r, prngReg c r))

def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outv m c
  Φ t := PhiV m c t.val
  q _ := fullShare
  owed _ := 0

theorem A_eqV (c : Dev nD) (w : Fin cfg0.W) : (datsV m 0 c).A w = V m c (Pipeline.arrRef spec0 w) := by
  dsimp only [datsV]

theorem after0 (c : Dev nD) (t : Fin cfg0.N) : (datsV m 0 c).after 0 t = iblk m c 0 t := by dsimp only [datsV]
theorem after1 (c : Dev nD) (t : Fin cfg0.N) : (datsV m 0 c).after 1 t = outv m c := by dsimp only [datsV]

theorem before0 (c : Dev nD) (t : Fin cfg0.N) (d) : (datsV m 0 c).before 0 t d = iblk m c 0 t :=
  before0_0_of m (datsV m 0 c) (A_eqV m c 0) (after0 m c) t d

def bodyPreV (c : Dev nD) (t : Fin cfg0.N) : sProp 𝕄 :=
  iprop((datsV m 0 c).Φ t.castSucc ∗ (datsV m 0 c).owesAt () t.castSucc
    ∗ (∃ d, owns (c : Thread nD τ) (ms0 t) fullShare ((datsV m 0 c).before 0 t d))
    ∗ (∃ d, owns (c : Thread nD τ) (ms1 t) fullShare ((datsV m 0 c).before 1 t d)))

def bodyPostV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t)

theorem Phi_castSucc (c : Dev nD) (t : Fin cfg0.N) : (datsV m 0 c).Φ t.castSucc = PhiV m c t.val := by
  dsimp only [datsV]; rw [Fin.coe_castSucc]
theorem Phi_succ (c : Dev nD) (t : Fin cfg0.N) : (datsV m 0 c).Φ t.succ = PhiV m c (t.val + 1) := by
  dsimp only [datsV]; rw [Fin.val_succ]

set_option maxHeartbeats 1600000 in

/-- A point before the last: its run, with the step from `Before` to the invariant after it, meets the obligation. -/
theorem sound_keeps (c : Dev nD) (t : Fin cfg0.N) (ht : t.val ≠ 7)
    (R : ∀ s0 s1 s2 s3 s4, Found (Keeps c (grid0.coords t) (opsAt t) (iblk m c 0 t) s0 s1 s2 s3 s4))
    (hR : ∀ s0 s1 s2 s3 s4, Before (xmat m c) t.val (St.ofVecs s0 s1 s2 s3 s4) → Inv (xmat m c) t.val (stOf (R s0 s1 s2 s3 s4))) :
    bodyPreV m c t ⊢ wp frame (wpE (defs₀ (F := Ideal)) Variants.none c none) Set.univ (bodyAt0 t) (fun _ => bodyPostV m c t) := by
  unfold bodyPreV bodyPostV bodyAt0
  simp only [before0]
  rw [show (datsV m 0 c).owesAt () t.succ = (datsV m 0 c).owesAt () t.castSucc from rfl]
  rw [show (datsV m 0 c).leavesExact 0 t = owns (c : Thread nD τ) (ms0 t) fullShare ((datsV m 0 c).after 0 t) from by
    unfold Dat.leavesExact; rw [liveAt0 t], after0]
  rw [Dat.leavesExact_idle (datsV m 0 c) 1 t (idleAt1 t ht) (noFlush1 t ht), Phi_succ, Phi_castSucc]
  unfold PhiV
  iintro ⟨⟨⟨%s0, %s1, %s2, %s3, %s4, %hinv, HS0, HS1, HS2, HS3, HS4⟩, Hg⟩, Ho, ⟨%d0, H0⟩, ⟨%d1, H1⟩⟩
  iapply ((R s0 s1 s2 s3 s4).ok _ Set.univ _)
  isplitl [H0]; · iexact H0
  isplitl [H1]; · iexact H1
  isplitl [HS0]; · iexact HS0
  isplitl [HS1]; · iexact HS1
  isplitl [HS2]; · iexact HS2
  isplitl [HS3]; · iexact HS3
  isplitl [HS4]; · iexact HS4
  iintro ⟨H0, H1, HS0, HS1, HS2, HS3, HS4⟩
  isplitl [HS0 HS1 HS2 HS3 HS4 Hg]
  · isplitl [HS0 HS1 HS2 HS3 HS4]
    · iexists _; iexists _; iexists _; iexists _; iexists _
      isplitr
      swap
      · isplitl [HS0]; · iexact HS0
        isplitl [HS1]; · iexact HS1
        isplitl [HS2]; · iexact HS2
        isplitl [HS3]; · iexact HS3
        iexact HS4
      ipureintro
      exact hR s0 s1 s2 s3 s4 hinv
    iexact Hg
  isplitl [Ho]; · iexact Ho
  isplitl [H0]; · iexact H0
  iexists _; iexact H1

set_option maxHeartbeats 1600000 in

/-- The last point also leaves the loss in the output cell. -/
theorem sound_last (c : Dev nD) :
    bodyPreV m c t0_7 ⊢ wp frame (wpE (defs₀ (F := Ideal)) Variants.none c none) Set.univ (bodyAt0 t0_7) (fun _ => bodyPostV m c t0_7) := by
  unfold bodyPreV bodyPostV bodyAt0
  simp only [before0]
  rw [show (datsV m 0 c).owesAt () (t0_7).succ = (datsV m 0 c).owesAt () (t0_7).castSucc from rfl]
  rw [show (datsV m 0 c).leavesExact 0 t0_7 = owns (c : Thread nD τ) (ms0 t0_7) fullShare ((datsV m 0 c).after 0 t0_7) from by
    unfold Dat.leavesExact; rw [liveAt0 t0_7], after0]
  rw [show (datsV m 0 c).leavesExact 1 t0_7 = owns (c : Thread nD τ) (ms1 t0_7) fullShare ((datsV m 0 c).after 1 t0_7) from by
    unfold Dat.leavesExact; rw [liveAt1 t0_7 (by decide)], after1]
  rw [Phi_succ, Phi_castSucc]
  unfold PhiV
  iintro ⟨⟨⟨%s0, %s1, %s2, %s3, %s4, %hinv, HS0, HS1, HS2, HS3, HS4⟩, Hg⟩, Ho, ⟨%d0, H0⟩, ⟨%d1, H1⟩⟩
  iapply ((kernelRun7 c (grid0.coords t0_7) (opsAt t0_7) (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) (iblk m c 0 t0_7) s0 s1 s2 s3 s4).2.ok Set.univ _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  iintro ⟨H0, ⟨%e1, H1⟩, HS0, HS1, HS2, HS3, HS4⟩
  isplitl [HS0 HS1 HS2 HS3 HS4 Hg]
  · isplitl [HS0 HS1 HS2 HS3 HS4]
    · iexists _; iexists _; iexists _; iexists _; iexists _
      isplitr
      swap
      · isplitl [HS0]; · iexact HS0
        isplitl [HS1]; · iexact HS1
        isplitl [HS2]; · iexact HS2
        isplitl [HS3]; · iexact HS3
        iexact HS4
      ipureintro
      exact inv_step7 c _ _ _ _ _ _ _ _ _ _ (xmat m c) _ (blk_read m c t0_7) s0 s1 s2 s3 s4 hinv
    iexact Hg
  isplitl [Ho]; · iexact Ho
  isplitl [H0]; · iexact H0
  unfold owns; iexists _; isplitr
  swap; · iexact H1
  ipureintro; exact out_last c _ _ _ _ _ _ _ _ _ _ (xmat m c) _ (blk_read m c t0_7) s0 s1 s2 s3 s4 hinv _

theorem sound_bodyV (c : Dev nD) (t : Fin cfg0.N) :
    bodyPreV m c t ⊢ wp frame (wpE (defs₀ (F := Ideal)) Variants.none c none) Set.univ (bodyAt0 t) (fun _ => bodyPostV m c t) := by
  rcases fin_N0 t with rfl | rfl | rfl | rfl | rfl | rfl | rfl | rfl
  · exact sound_keeps m c _ (by decide) (fun s0 s1 s2 s3 s4 => kernelRun0 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step0 c _ _ _ _ _ _ _ _ _ _ (xmat m c) _ (blk_read m c _) s0 s1 s2 s3 s4
  · exact sound_keeps m c _ (by decide) (fun s0 s1 s2 s3 s4 => kernelRun1 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step1 c _ _ _ _ _ _ _ _ _ _ (xmat m c) _ (blk_read m c _) s0 s1 s2 s3 s4 hinv
  · exact sound_keeps m c _ (by decide) (fun s0 s1 s2 s3 s4 => kernelRun2 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step2 c _ _ _ _ _ _ _ _ _ _ (xmat m c) _ (blk_read m c _) s0 s1 s2 s3 s4 hinv
  · exact sound_keeps m c _ (by decide) (fun s0 s1 s2 s3 s4 => kernelRun3 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step3 c _ _ _ _ _ _ _ _ _ _ (xmat m c) _ (blk_read m c _) s0 s1 s2 s3 s4 hinv
  · exact sound_keeps m c _ (by decide) (fun s0 s1 s2 s3 s4 => kernelRun4 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step4 c _ _ _ _ _ _ _ _ _ _ (xmat m c) _ (blk_read m c _) s0 s1 s2 s3 s4 hinv
  · exact sound_keeps m c _ (by decide) (fun s0 s1 s2 s3 s4 => kernelRun5 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step5 c _ _ _ _ _ _ _ _ _ _ (xmat m c) _ (blk_read m c _) s0 s1 s2 s3 s4 hinv
  · exact sound_keeps m c _ (by decide) (fun s0 s1 s2 s3 s4 => kernelRun6 c _ _ (by rw [hcond1]; decide) (by rw [hcond2]; decide) (by rw [hcond3]; decide) (by rw [hcond4]; decide) (by rw [hcond5]; decide) (by rw [hcond6]; decide) (by rw [hcond7]; decide) (by rw [hcond8]; decide) (by rw [hcond9]; decide) _ s0 s1 s2 s3 s4)
      fun s0 s1 s2 s3 s4 hinv => inv_step6 c _ _ _ _ _ _ _ _ _ _ (xmat m c) _ (blk_read m c _) s0 s1 s2 s3 s4 hinv
  · exact sound_last m c

theorem body_obligationV (c : Dev nD) : BodyObligation (datsV m 0 c) (defs₀ (F := Ideal)) Variants.none () Set.univ := fun t => by
  rw [bigSep_W0, bigSep_W0]
  exact sound_bodyV m c t

theorem hinV (c : Dev nD) : Pipeline.ΦA spec0 c ⊢ (datsV m 0 c).Φ 0 := by
  rw [show (datsV m 0 c).Φ 0 = PhiV m c 0 from rfl, PhiA0_eq]
  unfold PhiV
  iintro ⟨⟨⟨%s0, HS0⟩, ⟨%s1, HS1⟩, ⟨%s2, HS2⟩, ⟨%s3, HS3⟩, ⟨%s4, HS4⟩⟩, Hg⟩
  isplitl [HS0 HS1 HS2 HS3 HS4]
  · iexists s0; iexists s1; iexists s2; iexists s3; iexists s4
    isplitr; · ipureintro; trivial
    isplitl [HS0]; · iexact HS0
    isplitl [HS1]; · iexact HS1
    isplitl [HS2]; · iexact HS2
    isplitl [HS3]; · iexact HS3
    iexact HS4
  iexact Hg

theorem houtV (c : Dev nD) : (datsV m 0 c).Φ (Fin.last cfg0.N) ⊢ Pipeline.ΦA spec0 c := by
  rw [show (datsV m 0 c).Φ (Fin.last cfg0.N) = PhiV m c (Fin.last cfg0.N).val from rfl, PhiA0_eq]
  unfold PhiV
  iintro ⟨⟨%s0, %s1, %s2, %s3, %s4, %hinv, HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.KernelIdeal.Gen

end
-- ==== Proof.ValueRun.lean ====
import proofs.«108340_g74552042324289_cont_9to1_m_1244_4_alg».proof.Proof.ValueBody
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KoLeo Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in

theorem run_mainV : θ_run defs (onTc (τ := τ) (main (F := Ideal))) (s₀ m ρ)
    (Pipeline.FramePost cfgs (datsV m) 0 (Pipeline.afterTail₀ cfgs (datsV m) 0 (V0 m) [hostOps1])) :=
  Pipeline.θ_run_frame_around_track cfgs (datsV m) (0 : Fin 1) launch0 defs₀ Variants.none m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hin := hinV m) (hout := houtV m)

theorem out_cover (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_7, (flush0_1 t0_7).mpr (by decide), ?_⟩
  show i ∈ ((View.whole main_v0).slice (win0_1.rect t0_7)).set
  rw [View.set_slice_whole, Rect.mem_set_unit]
  intro a
  match a with
  | ⟨0, h⟩ =>
    have h0 : (i ⟨0, h⟩).val < 1 := (i ⟨0, h⟩).isLt
    show 0 * 1 ≤ (i ⟨0, h⟩).val ∧ (i ⟨0, h⟩).val < 0 * 1 + 1
    omega
  | ⟨1, h⟩ =>
    have h1 : (i ⟨1, h⟩).val < 1 := (i ⟨1, h⟩).isLt
    show 0 * 1 ≤ (i ⟨1, h⟩).val ∧ (i ⟨1, h⟩).val < 0 * 1 + 1
    omega

theorem out_final (c : Dev nD) : (datsV m 0 c).arrAt 1 cfg0.N = outv m c := by
  refine (datsV m 0 c).arrAt_eq_of_cover 1 (outv m c) (fun t ht => ?_) (out_cover c)
  show (cfg0.win 1).cut (grid0.coords t) ((datsV m 0 c).after 1 t) = _
  rw [after1]
  funext j; rfl

theorem tail_v1 (c : Dev nD) :
    Pipeline.afterTail₀ cfgs (datsV m) 0 (V0 m) [hostOps1] c main_v1 = (fun _ => Gker (xmat m c)) := by
  unfold Pipeline.afterTail₀
  show StableHlo.after hostOps1 _ (Proc.devRef .tc main_v1) = _
  after_results
  have e : Pipeline.withArrays (cfgs 0).spec c (V0 m c) (fun w => (datsV m 0 c).arrAt w (cfgs 0).N) (Proc.devRef .tc main_v0) = outv m c :=
    (Pipeline.withArrays_arr spec0 launch0.win.arr_inj c _ _ 1).trans (out_final m c)
  rw [e]; funext i; rfl

/-- The program ends with the result at `Gker` of the argument matrix, the argument unchanged. -/
theorem run_value : θ_run defs (onTc (τ := τ) (main (F := Ideal))) ⟨m, fun _ => 0, ρ⟩ (fun r => ∀ c : Dev nD,
      r.2.mem ((c.tc : Thread nD τ).loc main_v1) = (fun _ => Gker (mat (m ((c.tc : Thread nD τ).loc main_arg0))))
      ∧ r.2.mem ((c.tc : Thread nD τ).loc main_arg0) = m ((c.tc : Thread nD τ).loc main_arg0)) :=
  (θ_run defs _ _).mono (fun r h c => ⟨((h c).2 main_v1 (Pipeline.mem_restRefs_of main_v1 rfl (by decide))).trans (tail_v1 m c),
      ((h c).1 0).trans (((datsV m 0 c).arrAt_in 0 rfl _).trans ((A_eqV m c 0).trans (V_main_arg0 m c)))⟩)
    (run_mainV m ρ)

end Cert.KernelIdeal.Gen

end
-- ==== Proof.RefSide.lean ====
import proofs.«108340_g74552042324289_cont_9to1_m_1244_4_alg».proof.Proof.Gen.ReferenceIdeal.Read
import proofs.«108340_g74552042324289_cont_9to1_m_1244_4_alg».proof.Proof.Spec
import Idealize.ShloMosaic.Lib.StableHlo.Predicate
import Idealize.ShloMosaic.Lib.ValueIdxRank1

noncomputable section

namespace Cert.ReferenceIdeal.RefValue

open Cert.ReferenceIdeal Cert.ReferenceIdeal.Gen Cert.ReferenceIdeal.Read Cert.KoLeo Idealize.ShloMosaic Idealize.ShloMosaic.ValueIdx
open scoped BigOperators

theorem idx1_ix1 (r : Fin 4096) (k : Fin 1024) : idx_main_v1 (ix1 r) k = ix2 r k :=
  funext fun a => Fin.ext (by match a with | ⟨0, _⟩ => rfl | ⟨1, _⟩ => rfl)

theorem v1_eq (x0 : (⟨S4096x1024, .f32⟩ : BufTy).Contents (Elt Ideal)) (r : Fin 4096) :
    val_main_v1 (F := Ideal) x0 (ix1 r) = refSq (mat x0) r := by
  rw [val_main_v1_apply, val_main_cst_apply]
  simp only [val_main_v0_apply, idx1_ix1, Ideal.mulf_def, Ideal.ofBits_def]
  rfl

theorem lidx3_ix2 (r c : Fin 4096) (k : Fin 1024) : lidx_main_v3 (ix2 r c) k = ix2 r k :=
  funext fun a => Fin.ext (by match a with | ⟨0, _⟩ => rfl | ⟨1, _⟩ => rfl)

theorem idx2_ridx3_ix2 (r c : Fin 4096) (k : Fin 1024) : idx_main_v2 (ridx_main_v3 (ix2 r c) k) = ix2 c k :=
  funext fun a => Fin.ext (by match a with | ⟨0, _⟩ => rfl | ⟨1, _⟩ => rfl)

theorem v3_eq (x0 : (⟨S4096x1024, .f32⟩ : BufTy).Contents (Elt Ideal)) (r c : Fin 4096) :
    val_main_v3 (F := Ideal) x0 (ix2 r c) = gram (mat x0) r c := by
  rw [val_main_v3_apply]
  simp only [val_main_v2_apply, lidx3_ix2, idx2_ridx3_ix2]
  rfl

theorem idx4_idx6_ix2 (r c : Fin 4096) : idx_main_v4 (idx_main_v6 (ix2 r c)) = ix1 r :=
  funext fun a => Fin.ext (by match a with | ⟨0, _⟩ => rfl)

theorem idx5_idx7_ix2 (r c : Fin 4096) : idx_main_v5 (idx_main_v7 (ix2 r c)) = ix1 c :=
  funext fun a => Fin.ext (by match a with | ⟨0, _⟩ => rfl)

theorem v13_eq (x0 : (⟨S4096x1024, .f32⟩ : BufTy).Contents (Elt Ideal)) (r c : Fin 4096) :
    val_main_v13 (F := Ideal) x0 (ix2 r c)
      = max ((refSq (mat x0) r + refSq (mat x0) c) - TWO * gram (mat x0) r c) ZERO := by
  rw [val_main_v13_apply, val_main_v11_apply, val_main_v8_apply, val_main_v10_apply, val_main_v6_apply, val_main_v7_apply,
    val_main_v4_apply, val_main_v5_apply, val_main_v9_apply, val_main_v12_apply, val_main_cst_0_apply, val_main_cst_1_apply,
    idx4_idx6_ix2, idx5_idx7_ix2, v1_eq, v1_eq, v3_eq]
  simp only [Ideal.maximumf_def, Ideal.subf_def, Ideal.addf_def, Ideal.mulf_def, Ideal.ofBits_def]

theorem v18_eq (r c : Fin 4096) : val_main_v18 (F := Ideal) (ix2 r c) = if r = c then 1#1 else 0#1 := by
  rw [val_main_v18_apply, val_main_v17_apply, val_main_v14_apply, val_main_v15_apply, val_main_v16_apply, val_main_c_apply]
  show IntOp.cmpi .eq (IntOp.addi (BitVec.ofNat 32 r.val) 0#32) (BitVec.ofNat 32 c.val) = _
  by_cases h : r = c
  · rw [if_pos h]; subst h
    exact StableHlo.Predicate.cmpi_eq_iff.2 (by unfold IntOp.addi; exact BitVec.add_zero _)
  · rw [if_neg h]
    refine eq_zero_of_ne_one fun h1 => h ?_
    have e := StableHlo.Predicate.cmpi_eq_iff.1 h1
    unfold IntOp.addi at e
    rw [BitVec.add_zero] at e
    have e' := congrArg BitVec.toNat e
    simp only [BitVec.toNat_ofNat] at e'
    have hr := r.isLt
    have hc := c.isLt
    exact Fin.ext (by omega)

theorem v19_eq (x0 : (⟨S4096x1024, .f32⟩ : BufTy).Contents (Elt Ideal)) (r c : Fin 4096) :
    val_main_v19 (F := Ideal) x0 (ix2 r c) = refD (mat x0) r c := by
  rw [val_main_v19_apply, v18_eq, val_main_call0_v1_apply, val_main_call0_v0_apply, val_main_cst_2_apply, v13_eq]
  unfold refD
  by_cases h : r = c
  · rw [if_pos h, if_pos h, select_one]; rfl
  · rw [if_neg h, if_neg h, select_zero]

theorem v20_eq (x0 : (⟨S4096x1024, .f32⟩ : BufTy).Contents (Elt Ideal)) (r c : Fin 4096) :
    val_main_v20 (F := Ideal) x0 (ix2 r c) = Ideal.sqrt (refD (mat x0) r c) := by
  rw [val_main_v20_apply, v19_eq, Ideal.hostUnary_sqrt_def]

theorem red1 : S4096x4096.Reduces [1] S4096 := by decide

theorem lift_ix (r : Fin 4096) (k : Fin (S4096x4096.size 1)) :
    red1.lift (ix1 r) k = ix2 r (⟨k.val, k.isLt⟩ : Fin 4096) := by
  funext c; apply Fin.ext
  fin_cases c <;> rfl

theorem v21_eq (x0 : (⟨S4096x1024, .f32⟩ : BufTy).Contents (Elt Ideal)) (r : Fin 4096) :
    val_main_v21 (F := Ideal) x0 (ix1 r) = refMin (mat x0) r := by
  unfold val_main_v21
  rw [Host.reduce_eq_fold_single FloatOps.minimumf _ _ reducesTo_S4096x4096_S4096_d1 red1 h_S_]
  have hf : (val_main_v20 (F := Ideal) x0 ∘ red1.lift (ix1 r)) = fun c : Fin 4096 => Ideal.sqrt (refD (mat x0) r c) :=
    funext fun k => by
      show val_main_v20 (F := Ideal) x0 (red1.lift (ix1 r) k) = _
      rw [lift_ix, v20_eq]
      rfl
  rw [val_main_cst_3_apply]
  unfold refMin
  exact congrArg (fun f => Finset.fold min INF f (Finset.univ : Finset (Fin 4096))) hf

theorem v24_eq (x0 : (⟨S4096x1024, .f32⟩ : BufTy).Contents (Elt Ideal)) (r : Fin 4096) :
    val_main_v24 (F := Ideal) x0 (ix1 r) = Ideal.log (refMin (mat x0) r + EPS) := by
  rw [val_main_v24_apply, val_main_v23_apply, v21_eq, val_main_v22_apply, val_main_cst_4_apply]
  simp only [Ideal.hostUnary_log_def, Ideal.addf_def, Ideal.ofBits_def]

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's host program, read one operation at a time at an index, is `Gref`. -/
theorem ref_eq (x0 : (⟨S4096x1024, .f32⟩ : BufTy).Contents (Elt Ideal)) :
    val_main_v27 (F := Ideal) x0 = fun _ => Gref (mat x0) := by
  funext i
  rw [val_main_v27_apply, val_main_v26_apply, val_main_v25_apply, val_main_cst_5_apply, val_main_cst_6_apply, sum_idx1]
  simp only [v24_eq, Ideal.hostNegf_def, Ideal.negf_def, Ideal.hostDivf_def, Ideal.ofBits_def]
  rfl

end Cert.ReferenceIdeal.RefValue

end
-- ==== Proof.Bridge.lean ====
import proofs.«108340_g74552042324289_cont_9to1_m_1244_4_alg».proof.Proof.Spec
import proofs.«108340_g74552042324289_cont_9to1_m_1244_4_alg».proof.Proof.Lits

noncomputable section

namespace Cert.KoLeo

open Idealize.ShloMosaic
open scoped BigOperators

theorem coe_finsum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

abbrev RMat : Type := Fin 4096 → Fin 1024 → ℝ

def rS (a : RMat) (r : Fin 4096) : ℝ := ∑ k : Fin 1024, a r k * a r k

def rG (a : RMat) (r c : Fin 4096) : ℝ := ∑ k : Fin 1024, a r k * a c k

def rD (a : RMat) (r c : Fin 4096) : ℝ := rS a r + rS a c - 2 * rG a r c

theorem rG_comm (a : RMat) (r c : Fin 4096) : rG a r c = rG a c r :=
  Finset.sum_congr rfl fun _ _ => mul_comm _ _

section Finite

variable {x : Mat} {a : RMat} (ha : ∀ r k, x r k = (a r k : EReal))
include ha

theorem sqn_coe (r : Fin 4096) : sqn x r = (rS a r : EReal) := by
  unfold sqn rS
  rw [coe_finsum]
  refine Finset.sum_congr rfl fun k _ => ?_
  rw [ha, EReal.coe_mul]

theorem gram_coe (r c : Fin 4096) : gram x r c = (rG a r c : EReal) := by
  unfold gram rG
  rw [coe_finsum]
  refine Finset.sum_congr rfl fun k _ => ?_
  rw [ha, ha, EReal.coe_mul]

theorem gpk_coe (r c : Fin 4096) : gpk x r c = ((-2 * rG a r c : ℝ) : EReal) := by
  unfold gpk rG
  rw [Finset.mul_sum, coe_finsum]
  refine Finset.sum_congr rfl fun k _ => ?_
  rw [ha, ha, MTWO_eq, ← EReal.coe_mul, ← EReal.coe_mul]
  congr 1
  ring

/-- With real entries −2 distributes over the inner product, so each side's term plus the row's squared norm is the squared distance. -/
theorem T1_add_sqn (r c : Fin 4096) : T1 x r c + sqn x r = (rD a r c : EReal) := by
  rw [T1, sqn_coe ha c, sqn_coe ha r, gpk_coe ha r c, ← EReal.coe_add, ← EReal.coe_add]
  congr 1
  unfold rD
  ring

theorem T2_add_sqn (r' r : Fin 4096) : T2 x r' r + sqn x r = (rD a r r' : EReal) := by
  rw [T2, sqn_coe ha r', sqn_coe ha r, gpk_coe ha r' r, ← EReal.coe_add, ← EReal.coe_add]
  congr 1
  unfold rD
  rw [rG_comm a r r']
  ring

end Finite

theorem inf_add_coe {ι : Type} (s : Finset ι) (f : ι → EReal) (c : ℝ) :
    s.inf f + (c : EReal) = s.inf (fun i => f i + (c : EReal)) :=
  Finset.apply_inf_eq_inf_comp_of_linearOrder (fun y => y + (c : EReal))
    (fun _ _ h => add_le_add h le_rfl) (EReal.top_add_coe c)

theorem sqrt_mono : Monotone Ideal.sqrt := by
  intro y z h
  induction y with
  | bot => simp
  | top =>
    have hz : z = ⊤ := top_le_iff.mp h
    subst hz
    exact le_rfl
  | coe p =>
    induction z with
    | bot => exact absurd h (by simp)
    | top => simp
    | coe q =>
      have hpq : p ≤ q := EReal.coe_le_coe_iff.mp h
      rw [Ideal.sqrt_coe, Ideal.sqrt_coe]
      by_cases hp : p < 0
      · rw [if_pos hp]
        exact bot_le
      · have hq : ¬ q < 0 := fun hq => hp (lt_of_le_of_lt hpq hq)
        rw [if_neg hp, if_neg hq]
        exact EReal.coe_le_coe_iff.mpr (Real.sqrt_le_sqrt hpq)

/-- Clamping at 0 and the square root are monotone, so they commute with a finite infimum. -/
theorem sqrt_clamp_inf {ι : Type} (s : Finset ι) (f : ι → EReal) :
    Ideal.sqrt (max (s.inf f) 0) = s.inf (fun i => Ideal.sqrt (max (f i) 0)) :=
  Finset.apply_inf_eq_inf_comp_of_linearOrder (fun y => Ideal.sqrt (max y 0))
    (fun _ _ h => sqrt_mono (max_le_max h le_rfl)) (by simp)

/-- Every other index is met exactly on one of the two sides. -/
theorem rowSet_union_colSet (r : Fin 4096) : rowSet r ∪ colSet r = Finset.univ.erase r := by
  ext c
  simp only [rowSet, colSet, Finset.mem_union, Finset.mem_filter, Finset.mem_univ, true_and,
    Finset.mem_erase, and_true]
  simp only [blk, half, ne_eq, Fin.ext_iff]
  omega

section Finite

variable {x : Mat} {a : RMat} (ha : ∀ r k, x r k = (a r k : EReal))
include ha

theorem kerRowMin_add_sqn (r : Fin 4096) :
    kerRowMin x r + sqn x r = (rowSet r).inf (fun c => (rD a r c : EReal)) := by
  rw [kerRowMin, sqn_coe ha r, inf_add_coe]
  refine Finset.inf_congr rfl fun c _ => ?_
  rw [← sqn_coe ha r, T1_add_sqn ha]

theorem kerColMin_add_sqn (r : Fin 4096) :
    kerColMin x r + sqn x r = (colSet r).inf (fun c => (rD a r c : EReal)) := by
  rw [kerColMin, sqn_coe ha r, inf_add_coe]
  refine Finset.inf_congr rfl fun c _ => ?_
  rw [← sqn_coe ha r, T2_add_sqn ha]

theorem kerMd2_eq (r : Fin 4096) :
    kerMd2 x r = max ((Finset.univ.erase r).inf (fun c => (rD a r c : EReal))) 0 := by
  rw [kerMd2, kerRowMin_add_sqn ha, kerColMin_add_sqn ha, ZERO_eq, ← rowSet_union_colSet, Finset.inf_union]

theorem sqrt_kerMd2 (r : Fin 4096) :
    Ideal.sqrt (kerMd2 x r)
      = (Finset.univ.erase r).inf (fun c => Ideal.sqrt (max (rD a r c : EReal) 0)) := by
  rw [kerMd2_eq ha, sqrt_clamp_inf]

theorem refD_self (r : Fin 4096) : refD x r r = ⊤ := by
  rw [refD, if_pos rfl, INF_eq]

theorem refD_ne {r c : Fin 4096} (h : r ≠ c) : refD x r c = max (rD a r c : EReal) 0 := by
  rw [refD, if_neg h, refSq, refSq, ZERO_eq, zero_add, zero_add, TWO_eq, sqn_coe ha r, sqn_coe ha c,
    gram_coe ha r c, ← EReal.coe_add, ← EReal.coe_mul, ← EReal.coe_sub]
  rfl

theorem refMin_eq (r : Fin 4096) :
    refMin x r = (Finset.univ.erase r).inf (fun c => Ideal.sqrt (max (rD a r c : EReal) 0)) := by
  have h1 : refMin x r = (Finset.univ : Finset (Fin 4096)).inf (fun c => Ideal.sqrt (refD x r c)) := by
    rw [refMin, INF_eq]
    rfl
  have h2 : (Finset.univ : Finset (Fin 4096)) = insert r (Finset.univ.erase r) :=
    (Finset.insert_erase (Finset.mem_univ r)).symm
  rw [h1]
  conv_lhs => rw [h2]
  rw [Finset.inf_insert, refD_self ha, Ideal.sqrt_top, top_inf_eq]
  refine Finset.inf_congr rfl fun c hc => ?_
  rw [refD_ne ha (Finset.ne_of_mem_erase hc).symm]

end Finite

theorem scale_eq (y : EReal) :
    y * ((-(1 / 4096) : ℝ) : EReal) = -(Ideal.div (0 + y) ((4096 : ℝ) : EReal)) := by
  rw [Ideal.div_coe (by norm_num), zero_add, EReal.coe_neg, mul_neg]

/-- On real entries the squared distance is symmetric, so the two sides' infima join to the reference's row minimum. -/
theorem Gker_eq_Gref (x : Mat) (hx : ∀ r k, ∃ a : ℝ, x r k = (a : EReal)) : Gker x = Gref x := by
  choose a ha using hx
  have h : ∀ r, Ideal.sqrt (kerMd2 x r) = refMin x r := fun r => by
    rw [sqrt_kerMd2 ha, refMin_eq ha]
  rw [Gker, Gref, MINV_eq, N4096_eq, ZERO_eq]
  simp only [h]
  exact scale_eq _

end Cert.KoLeo

end
-- ==== Proof.Finite.lean ====
import proofs.«108340_g74552042324289_cont_9to1_m_1244_4_alg».proof.Pre_finite_inputs
import proofs.«108340_g74552042324289_cont_9to1_m_1244_4_alg».proof.Proof.Spec
import Idealize.ShloMosaic.Lib.ReduceAll

noncomputable section

namespace Cert.KoLeo

open Idealize.ShloMosaic Idealize.ShloMosaic.ValueIdx

instance subsingleton_scalar_idx : Subsingleton Cert.Pre_finite_inputs.S_.Idx :=
  ⟨fun a b => funext fun d => d.elim0⟩

theorem ofBool_eq_one {b : Bool} (h : BitVec.ofBool b = 1#1) : b = true := by
  cases b
  · exact absurd h (by decide)
  · rfl

theorem real_of_abs_lt_top (a : EReal) (h : max a (-a) < ⊤) : ∃ b : ℝ, a = (b : EReal) := by
  induction a using EReal.rec with
  | bot => simp at h
  | coe b => exact ⟨b, rfl⟩
  | top => simp at h

/-- The precondition says every |entry| < +∞, so every entry is a real number. -/
theorem finite_of_pre [Cert.Pre_finite_inputs.Facts] (x0 : FVec Ideal Cert.Pre_finite_inputs.S4096x1024 .f32)
    (h : Cert.Pre_finite_inputs.fn (F := Ideal) x0 = fun _ => 1#1) :
    ∀ (r : Fin 4096) (k : Fin 1024), ∃ a : ℝ, mat x0 r k = (a : EReal) := by
  intro r k

  have h0 := congrFun h ValueIdx.ix0
  dsimp only [Cert.Pre_finite_inputs.fn] at h0
  have h1 := Host.reduce_andi_all _ _ _ _ _ h0 (ix2 r k)

  have h2 : Ideal.cmp .olt (max (x0 (ix2 r k)) (-(x0 (ix2 r k)))) (Ideal.ofBits .f32 0x7F800000#32) = 1#1 := h1
  have h3 : max (x0 (ix2 r k)) (-(x0 (ix2 r k))) < ⊤ := by
    have e : Ideal.ofBits .f32 0x7F800000#32 = (⊤ : EReal) := by simp [Ideal.ofBits, Ideal.ieee]
    have h2' : decide (max (x0 (ix2 r k)) (-(x0 (ix2 r k))) < Ideal.ofBits .f32 0x7F800000#32) = true :=
      ofBool_eq_one h2
    rw [← e]
    exact of_decide_eq_true h2'
  exact real_of_abs_lt_top _ h3

end Cert.KoLeo

end
-- ==== Proof.lean ====
/-
  The pairwise-distance loss of a 4096 × 1024 matrix x, kernel against reference, over the extended reals:
      −(1/4096) · Σ_r log ( min_{c ≠ r} sqrt (max (|x_r|² + |x_c|² − 2 ⟨x_r, x_c⟩, 0)) + ε ).
  The reference takes every row's minimum over all columns. The kernel sweeps eight blocks of 512 rows: block g against an
  earlier block i gives minima for the rows of g and, by symmetry, for the rows of i; a row's own squared norm is added after
  the minimum. `Inv` says what is known after each block, each block keeps it, and on finite entries the two formulas agree:
  −2 distributes over the inner product, and adding a finite number, clamping at 0 and the square root are monotone.
-/
import proofs.«108340_g74552042324289_cont_9to1_m_1244_4_alg».proof.Defs
import proofs.«108340_g74552042324289_cont_9to1_m_1244_4_alg».proof.Proof.Gen.Kernel
import proofs.«108340_g74552042324289_cont_9to1_m_1244_4_alg».proof.Proof.Gen.KernelIdeal
import proofs.«108340_g74552042324289_cont_9to1_m_1244_4_alg».proof.Proof.Gen.ReferenceIdeal
import proofs.«108340_g74552042324289_cont_9to1_m_1244_4_alg».proof.Proof.Gen.Pre_finite_inputs
import proofs.«108340_g74552042324289_cont_9to1_m_1244_4_alg».proof.Proof.Gen.ReferenceIdeal.Run
import proofs.«108340_g74552042324289_cont_9to1_m_1244_4_alg».proof.Proof.Gen.ReferenceIdeal.Read
import proofs.«108340_g74552042324289_cont_9to1_m_1244_4_alg».proof.Proof.FrameRel
import proofs.«108340_g74552042324289_cont_9to1_m_1244_4_alg».proof.Proof.FrameRelK
import proofs.«108340_g74552042324289_cont_9to1_m_1244_4_alg».proof.Proof.ValueRun
import proofs.«108340_g74552042324289_cont_9to1_m_1244_4_alg».proof.Proof.RefSide
import proofs.«108340_g74552042324289_cont_9to1_m_1244_4_alg».proof.Proof.Bridge
import proofs.«108340_g74552042324289_cont_9to1_m_1244_4_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame_rel m ρ

theorem frame_ki : Cert.frame_KernelIdeal := fun m ρ _ => Cert.KernelIdeal.Gen.frame_rel m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From equal inputs the kernel ends at `Gker x`, the reference at `Gref x`; finite entries make them equal. -/
theorem algebraic : Cert.algebraic_KernelIdeal_ReferenceIdeal := by
  intro m ρ m' ρ' hpre hagree
  refine ⟨fun c => (fun _ => Cert.KoLeo.Gker (Cert.KoLeo.mat (m ((c.tc : Thread Cert.KernelIdeal.nD Cert.KernelIdeal.τ).loc Cert.KernelIdeal.main_arg0)))),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _).trans ((Cert.ReferenceIdeal.RefValue.ref_eq _).trans ?_)
  rw [hagree c]
  funext _
  exact (Cert.KoLeo.Gker_eq_Gref _ (Cert.KoLeo.finite_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
